-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S12288x12288 : Shape := ⟨2, ![12288, 12288]⟩
abbrev S4096x64 : Shape := ⟨2, ![4096, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S2 : Shape := ⟨1, ![2]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S2x64x64 .f32) (main_arg7 : FVec F S2x64 .f32) (main_arg8 : FVec F S2x64 .f32) (main_arg9 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_v33

def fn {F : FTy → Type} [FloatOps F] (main_arg0 : IVec S12288 32) (main_arg1 : IVec S12288 32) (main_arg2 : FVec F S12288x12288 .f32) (main_arg3 : FVec F S4096x64 .f32) (main_arg4 : FVec F S3x64x64 .f32) (main_arg5 : FVec F S3x64 .f32) (main_arg6 : FVec F S2x64x64 .f32) (main_arg7 : FVec F S2x64 .f32) (main_arg8 : FVec F S2x64 .f32) (main_arg9 : FVec F S2 .f32) : IVec S_ 1 :=
  let main_v0 : FVec F S12288x12288 .f32 := Host.absf main_arg2
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S4096x64 .f32 := Host.absf main_arg3
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_v13 main_v16
-- ==== Kernel.lean ====
abbrev S12288 : Shape := ⟨1, ![12288]⟩
abbrev S12288x12288 : Shape := ⟨2, ![12288, 12288]⟩
abbrev S4096x64 : Shape := ⟨2, ![4096, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S2 : Shape := ⟨1, ![2]⟩
abbrev S_ : Shape := ⟨0, ![]⟩
abbrev S12288x1 : Shape := ⟨2, ![12288, 1]⟩
abbrev S12288x64 : Shape := ⟨2, ![12288, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1024x1024 : Shape := ⟨2, ![1024, 1024]⟩
abbrev S1024x64 : Shape := ⟨2, ![1024, 64]⟩
abbrev S512x64 : Shape := ⟨2, ![512, 64]⟩
abbrev S64x2 : Shape := ⟨2, ![64, 2]⟩
abbrev S512x2 : Shape := ⟨2, ![512, 2]⟩
abbrev S1x2 : Shape := ⟨2, ![1, 2]⟩

abbrev nBuf : Space → Nat
  | .hbm => 73
  | .vmem => 33
  | .smem => 0
  | _ => 0

abbrev bufTy : (tb : Table) → Fin (tcTables nBuf tb) → BufTy
  | .hbm, ⟨0, _⟩ => ⟨S12288, .i32⟩
  | .hbm, ⟨1, _⟩ => ⟨S12288, .i32⟩
  | .hbm, ⟨2, _⟩ => ⟨S12288x12288, .f32⟩
  | .hbm, ⟨3, _⟩ => ⟨S4096x64, .f32⟩
  | .hbm, ⟨4, _⟩ => ⟨S3x64x64, .f32⟩
  | .hbm, ⟨5, _⟩ => ⟨S3x64, .f32⟩
  | .hbm, ⟨6, _⟩ => ⟨S2x64x64, .f32⟩
  | .hbm, ⟨7, _⟩ => ⟨S2x64, .f32⟩
  | .hbm, ⟨8, _⟩ => ⟨S2x64, .f32⟩
  | .hbm, ⟨9, _⟩ => ⟨S2, .f32⟩
  | .hbm, ⟨10, _⟩ => ⟨S_, .i32⟩
  | .hbm, ⟨11, _⟩ => ⟨S12288, .i32⟩
  | .hbm, ⟨12, _⟩ => ⟨S12288, .i1⟩
  | .hbm, ⟨13, _⟩ => ⟨S_, .i32⟩
  | .hbm, ⟨14, _⟩ => ⟨S12288, .i32⟩
  | .hbm, ⟨15, _⟩ => ⟨S12288, .i32⟩
  | .hbm, ⟨16, _⟩ => ⟨S12288, .i32⟩
  | .hbm, ⟨17, _⟩ => ⟨S12288x1, .i32⟩
  | .hbm, ⟨18, _⟩ => ⟨S12288x64, .f32⟩
  | .hbm, ⟨19, _⟩ => ⟨S1x64x64, .f32⟩
  | .hbm, ⟨20, _⟩ => ⟨S64x64, .f32⟩
  | .hbm, ⟨21, _⟩ => ⟨S1x64, .f32⟩
  | .hbm, ⟨22, _⟩ => ⟨S64, .f32⟩
  | .hbm, ⟨23, _⟩ => ⟨S64x64, .f32⟩
  | .hbm, ⟨24, _⟩ => ⟨S1x64, .f32⟩
  | .hbm, ⟨25, _⟩ => ⟨S12288x64, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S64, .f32⟩
  | .hbm, ⟨30, _⟩ => ⟨S64x64, .f32⟩
  | .hbm, ⟨31, _⟩ => ⟨S1x64, .f32⟩
  | .hbm, ⟨32, _⟩ => ⟨S12288x64, .f32⟩
  | .hbm, ⟨33, _⟩ => ⟨S1x64x64, .f32⟩
  | .hbm, ⟨34, _⟩ => ⟨S64x64, .f32⟩
  | .hbm, ⟨35, _⟩ => ⟨S1x64, .f32⟩
  | .hbm, ⟨36, _⟩ => ⟨S64, .f32⟩
  | .hbm, ⟨37, _⟩ => ⟨S64x64, .f32⟩
  | .hbm, ⟨38, _⟩ => ⟨S1x64, .f32⟩
  | .hbm, ⟨39, _⟩ => ⟨S12288x64, .f32⟩
  | .hbm, ⟨40, _⟩ => ⟨S_, .f32⟩
  | .hbm, ⟨41, _⟩ => ⟨S512x64, .f32⟩
  | .hbm, ⟨42, _⟩ => ⟨S12288x1, .i32⟩
  | .hbm, ⟨43, _⟩ => ⟨S512x64, .f32⟩
  | .hbm, ⟨44, _⟩ => ⟨S1x64x64, .f32⟩
  | .hbm, ⟨45, _⟩ => ⟨S64x64, .f32⟩
  | .hbm, ⟨46, _⟩ => ⟨S64x64, .f32⟩
  | .hbm, ⟨47, _⟩ => ⟨S512x64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S512x64, .f32⟩
  | .hbm, ⟨52, _⟩ => ⟨S512x64, .f32⟩
  | .hbm, ⟨53, _⟩ => ⟨S_, .f32⟩
  | .hbm, ⟨54, _⟩ => ⟨S512x64, .f32⟩
  | .hbm, ⟨55, _⟩ => ⟨S512x64, .f32⟩
  | .hbm, ⟨56, _⟩ => ⟨S1x64x64, .f32⟩
  | .hbm, ⟨57, _⟩ => ⟨S64x64, .f32⟩
  | .hbm, ⟨58, _⟩ => ⟨S64x64, .f32⟩
  | .hbm, ⟨59, _⟩ => ⟨S512x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S512x64, .f32⟩
  | .hbm, ⟨64, _⟩ => ⟨S512x64, .f32⟩
  | .hbm, ⟨65, _⟩ => ⟨S_, .f32⟩
  | .hbm, ⟨66, _⟩ => ⟨S512x64, .f32⟩
  | .hbm, ⟨67, _⟩ => ⟨S512x64, .f32⟩
  | .hbm, ⟨68, _⟩ => ⟨S64x2, .f32⟩
  | .hbm, ⟨69, _⟩ => ⟨S512x2, .f32⟩
  | .hbm, ⟨70, _⟩ => ⟨S1x2, .f32⟩
  | .hbm, ⟨71, _⟩ => ⟨S512x2, .f32⟩
  | .hbm, ⟨72, _⟩ => ⟨S512x2, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S64x64, .f32⟩
  | .local _ .vmem, ⟨7, _⟩ => ⟨S1x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x1024, .f32⟩
  | .local _ .vmem, ⟨12, _⟩ => ⟨S1024x1024, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S64x64, .f32⟩
  | .local _ .vmem, ⟨18, _⟩ => ⟨S1x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x1024, .f32⟩
  | .local _ .vmem, ⟨23, _⟩ => ⟨S1024x1024, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S64x64, .f32⟩
  | .local _ .vmem, ⟨29, _⟩ => ⟨S1x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | _, _ => ⟨S12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![12, 12], ![false, false]⟩

def k0_cond2 (i : grid0.Coords) : BitVec 1 :=
  let arg1 : BitVec 32 := BitVec.ofNat 32 (i 1).val
  let c11_i32 : BitVec 32 := 11#32
  let v25 : BitVec 1 := Scalar.cmpi .eq arg1 c11_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![12, 12], ![false, false]⟩

def k1_cond2 (i : grid1.Coords) : BitVec 1 :=
  let arg1 : BitVec 32 := BitVec.ofNat 32 (i 1).val
  let c11_i32 : BitVec 32 := 11#32
  let v25 : BitVec 1 := Scalar.cmpi .eq arg1 c11_i32
  let v26 : BitVec 32 := Scalar.extui v25
  let c0_i32_14 : BitVec 32 := 0#32
  let v27 : BitVec 1 := Scalar.cmpi .ne v26 c0_i32_14
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![12, 12], ![false, false]⟩

def k2_cond2 (i : grid2.Coords) : BitVec 1 :=
  let arg1 : BitVec 32 := BitVec.ofNat 32 (i 1).val
  let c11_i32 : BitVec 32 := 11#32
  let v25 : BitVec 1 := Scalar.cmpi .eq arg1 c11_i32
  let v26 : BitVec 32 := Scalar.extui v25
  let c0_i32_14 : BitVec 32 := 0#32
  let v27 : BitVec 1 := Scalar.cmpi .ne v26 c0_i32_14
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  transposes_S64x64_S64x64_1_0 : S64x64.Transposes [1, 0] S64x64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x1024_S1024x1024_0_0 : ∀ a, (![0, 0] : Fin 2 → Nat) a + S1024x1024.size a ≤ S1024x1024.size a
  h_S1024x1024 : 0 < S1024x1024.numel
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  slices_S2x64x64_S1x64x64_0_0_0 : S2x64x64.Slices ![0, 0, 0] S1x64x64
  slices_S2x64_S1x64_0_0 : S2x64.Slices ![0, 0] S1x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  slices_S2x64x64_S1x64x64_1_0_0 : S2x64x64.Slices ![1, 0, 0] S1x64x64
  slices_S2x64_S1x64_1_0 : S2x64.Slices ![1, 0] S1x64
  transposes_S2x64_S64x2_1_0 : S2x64.Transposes [1, 0] S64x2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S4096x64_S12288x1_S12288x64_1_0_n_n_0_1_164_wf : GatherDims.WF S4096x64 S12288x1 S12288x64 [1] [0] [] [0] [] 1 ![1, 64]
  dot_S1024x64_S64x64_S1024x64_1_0_0_1_n_n_wf : DotDims.WF S1024x64 S64x64 S1024x64 [1] [0] [0] [1] [] []
  dot_S1024x1024_S1024x64_S1024x64_1_0_0_1_n_n_wf : DotDims.WF S1024x1024 S1024x64 S1024x64 [1] [0] [0] [1] [] []
  scatter_S512x64_S12288x1_S12288x64_1_0_0_1_wf : ScatterDims.WF S512x64 S12288x1 S12288x64 [1] [0] [0] 1
  dot_S512x64_S64x64_S512x64_1_0_0_1_n_n_wf : DotDims.WF S512x64 S64x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S12288x12288.size a
  hwx0_0 : ∀ i : grid0.Coords, EltTy.bits .f32 = 32 ∨ (Rect.block (s := S12288x12288) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S12288x64.size a
  hwx0_1 : ∀ i : grid0.Coords, EltTy.bits .f32 = 32 ∨ (Rect.block (s := S12288x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S12288x64.size a
  hwx0_2 : ∀ i : grid0.Coords, EltTy.bits .f32 = 32 ∨ (Rect.block (s := S12288x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S12288x64.size a
  hwx0_5 : ∀ i : grid0.Coords, EltTy.bits .f32 = 32 ∨ (Rect.block (s := S12288x64) S1024x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .f32 = 32 ∨ (Rect.block (s := S12288x12288) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S12288x64.size a
  hwx1_1 : ∀ i : grid1.Coords, EltTy.bits .f32 = 32 ∨ (Rect.block (s := S12288x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S12288x64.size a
  hwx1_2 : ∀ i : grid1.Coords, EltTy.bits .f32 = 32 ∨ (Rect.block (s := S12288x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S12288x64.size a
  hwx1_5 : ∀ i : grid1.Coords, EltTy.bits .f32 = 32 ∨ (Rect.block (s := S12288x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S12288x12288.size a
  hwx2_0 : ∀ i : grid2.Coords, EltTy.bits .f32 = 32 ∨ (Rect.block (s := S12288x12288) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S12288x64.size a
  hwx2_1 : ∀ i : grid2.Coords, EltTy.bits .f32 = 32 ∨ (Rect.block (s := S12288x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S12288x64.size a
  hwx2_2 : ∀ i : grid2.Coords, EltTy.bits .f32 = 32 ∨ (Rect.block (s := S12288x64) S1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x64.size a ≤ S12288x64.size a
  hwx2_5 : ∀ i : grid2.Coords, EltTy.bits .f32 = 32 ∨ (Rect.block (s := S12288x64) S1024x64.size (cc2_transform_5 i) (hinb2_5 i)).WholeWords (EltTy.packing .f32)

variable [Facts₀]

def gather_S4096x64_S12288x1_S12288x64_1_0_n_n_0_1_164 : GatherDims S4096x64 S12288x1 S12288x64 where
  offsetDims := [1]
  collapsedSliceDims := [0]
  operandBatchingDims := []
  startIndicesBatchingDims := []
  startIndexMap := [0]
  indexVectorDim := 1
  sliceSizes := ![1, 64]
  wf := gather_S4096x64_S12288x1_S12288x64_1_0_n_n_0_1_164_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def scatter_S512x64_S12288x1_S12288x64_1_0_0_1 : ScatterDims S512x64 S12288x1 S12288x64 where
  updateWindowDims := [1]
  insertedWindowDims := [0]
  scatterDimsToOperandDims := [0]
  indexVectorDim := 1
  wf := scatter_S512x64_S12288x1_S12288x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1024x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S12288 : Shape := ⟨1, ![12288]⟩
abbrev S12288x12288 : Shape := ⟨2, ![12288, 12288]⟩
abbrev S4096x64 : Shape := ⟨2, ![4096, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S2 : Shape := ⟨1, ![2]⟩
abbrev S_ : Shape := ⟨0, ![]⟩
abbrev S12288x1 : Shape := ⟨2, ![12288, 1]⟩
abbrev S12288x64 : Shape := ⟨2, ![12288, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S64x2 : Shape := ⟨2, ![64, 2]⟩
abbrev S512x2 : Shape := ⟨2, ![512, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S12288, .i32⟩
  | .hbm, ⟨1, _⟩ => ⟨S12288, .i32⟩
  | .hbm, ⟨2, _⟩ => ⟨S12288x12288, .f32⟩
  | .hbm, ⟨3, _⟩ => ⟨S4096x64, .f32⟩
  | .hbm, ⟨4, _⟩ => ⟨S3x64x64, .f32⟩
  | .hbm, ⟨5, _⟩ => ⟨S3x64, .f32⟩
  | .hbm, ⟨6, _⟩ => ⟨S2x64x64, .f32⟩
  | .hbm, ⟨7, _⟩ => ⟨S2x64, .f32⟩
  | .hbm, ⟨8, _⟩ => ⟨S2x64, .f32⟩
  | .hbm, ⟨9, _⟩ => ⟨S2, .f32⟩
  | .hbm, ⟨10, _⟩ => ⟨S_, .i32⟩
  | .hbm, ⟨11, _⟩ => ⟨S12288, .i32⟩
  | .hbm, ⟨12, _⟩ => ⟨S12288, .i1⟩
  | .hbm, ⟨13, _⟩ => ⟨S_, .i32⟩
  | .hbm, ⟨14, _⟩ => ⟨S12288, .i32⟩
  | .hbm, ⟨15, _⟩ => ⟨S12288, .i32⟩
  | .hbm, ⟨16, _⟩ => ⟨S12288, .i32⟩
  | .hbm, ⟨17, _⟩ => ⟨S12288x1, .i32⟩
  | .hbm, ⟨18, _⟩ => ⟨S12288x64, .f32⟩
  | .hbm, ⟨19, _⟩ => ⟨S1x64x64, .f32⟩
  | .hbm, ⟨20, _⟩ => ⟨S64x64, .f32⟩
  | .hbm, ⟨21, _⟩ => ⟨S64x64, .f32⟩
  | .hbm, ⟨22, _⟩ => ⟨S12288x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S12288x64, .f32⟩
  | .hbm, ⟨27, _⟩ => ⟨S12288x64, .f32⟩
  | .hbm, ⟨28, _⟩ => ⟨S_, .f32⟩
  | .hbm, ⟨29, _⟩ => ⟨S12288x64, .f32⟩
  | .hbm, ⟨30, _⟩ => ⟨S12288x64, .f32⟩
  | .hbm, ⟨31, _⟩ => ⟨S12288x64, .f32⟩
  | .hbm, ⟨32, _⟩ => ⟨S12288x64, .f32⟩
  | .hbm, ⟨33, _⟩ => ⟨S1x64x64, .f32⟩
  | .hbm, ⟨34, _⟩ => ⟨S64x64, .f32⟩
  | .hbm, ⟨35, _⟩ => ⟨S64x64, .f32⟩
  | .hbm, ⟨36, _⟩ => ⟨S12288x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S12288x64, .f32⟩
  | .hbm, ⟨41, _⟩ => ⟨S12288x64, .f32⟩
  | .hbm, ⟨42, _⟩ => ⟨S_, .f32⟩
  | .hbm, ⟨43, _⟩ => ⟨S12288x64, .f32⟩
  | .hbm, ⟨44, _⟩ => ⟨S12288x64, .f32⟩
  | .hbm, ⟨45, _⟩ => ⟨S12288x64, .f32⟩
  | .hbm, ⟨46, _⟩ => ⟨S12288x64, .f32⟩
  | .hbm, ⟨47, _⟩ => ⟨S1x64x64, .f32⟩
  | .hbm, ⟨48, _⟩ => ⟨S64x64, .f32⟩
  | .hbm, ⟨49, _⟩ => ⟨S64x64, .f32⟩
  | .hbm, ⟨50, _⟩ => ⟨S12288x64, .f32⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S12288x64, .f32⟩
  | .hbm, ⟨55, _⟩ => ⟨S12288x64, .f32⟩
  | .hbm, ⟨56, _⟩ => ⟨S_, .f32⟩
  | .hbm, ⟨57, _⟩ => ⟨S12288x64, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S_, .f32⟩
  | .hbm, ⟨62, _⟩ => ⟨S512x64, .f32⟩
  | .hbm, ⟨63, _⟩ => ⟨S12288x1, .i32⟩
  | .hbm, ⟨64, _⟩ => ⟨S512x64, .f32⟩
  | .hbm, ⟨65, _⟩ => ⟨S1x64x64, .f32⟩
  | .hbm, ⟨66, _⟩ => ⟨S64x64, .f32⟩
  | .hbm, ⟨67, _⟩ => ⟨S64x64, .f32⟩
  | .hbm, ⟨68, _⟩ => ⟨S512x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S512x64, .f32⟩
  | .hbm, ⟨73, _⟩ => ⟨S512x64, .f32⟩
  | .hbm, ⟨74, _⟩ => ⟨S_, .f32⟩
  | .hbm, ⟨75, _⟩ => ⟨S512x64, .f32⟩
  | .hbm, ⟨76, _⟩ => ⟨S512x64, .f32⟩
  | .hbm, ⟨77, _⟩ => ⟨S1x64x64, .f32⟩
  | .hbm, ⟨78, _⟩ => ⟨S64x64, .f32⟩
  | .hbm, ⟨79, _⟩ => ⟨S64x64, .f32⟩
  | .hbm, ⟨80, _⟩ => ⟨S512x64, .f32⟩
  | .hbm, ⟨81, _⟩ => ⟨S1x64, .f32⟩
  | .hbm, ⟨82, _⟩ => ⟨S64, .f32⟩
  | .hbm, ⟨83, _⟩ => ⟨S1x64, .f32⟩
  | .hbm, ⟨84, _⟩ => ⟨S512x64, .f32⟩
  | .hbm, ⟨85, _⟩ => ⟨S512x64, .f32⟩
  | .hbm, ⟨86, _⟩ => ⟨S_, .f32⟩
  | .hbm, ⟨87, _⟩ => ⟨S512x64, .f32⟩
  | .hbm, ⟨88, _⟩ => ⟨S512x64, .f32⟩
  | .hbm, ⟨89, _⟩ => ⟨S64x2, .f32⟩
  | .hbm, ⟨90, _⟩ => ⟨S512x2, .f32⟩
  | .hbm, ⟨91, _⟩ => ⟨S1x2, .f32⟩
  | .hbm, ⟨92, _⟩ => ⟨S512x2, .f32⟩
  | .hbm, ⟨93, _⟩ => ⟨S512x2, .f32⟩
  | _, _ => ⟨S12288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_cst : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call3_cst : Ref sig .tc := ⟨.hbm, 74, rfl⟩
abbrev main_call3_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call4_cst : Ref sig .tc := ⟨.hbm, 86, rfl⟩
abbrev main_call4_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S_S12288x64 : S_.BroadcastsInDim S12288x64 (![] : Fin 0 → Fin S12288x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  slices_S2x64x64_S1x64x64_0_0_0 : S2x64x64.Slices ![0, 0, 0] S1x64x64
  slices_S2x64_S1x64_0_0 : S2x64.Slices ![0, 0] S1x64
  bcast_S1x64_S512x64_0_1 : S1x64.BroadcastsInDim S512x64 (![0, 1] : Fin 2 → Fin S512x64.rank)
  slices_S2x64x64_S1x64x64_1_0_0 : S2x64x64.Slices ![1, 0, 0] S1x64x64
  slices_S2x64_S1x64_1_0 : S2x64.Slices ![1, 0] S1x64
  transposes_S2x64_S64x2_1_0 : S2x64.Transposes [1, 0] S64x2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S4096x64_S12288x1_S12288x64_1_0_n_n_0_1_164_wf : GatherDims.WF S4096x64 S12288x1 S12288x64 [1] [0] [] [0] [] 1 ![1, 64]
  dot_S12288x64_S64x64_S12288x64_1_0_0_1_n_n_wf : DotDims.WF S12288x64 S64x64 S12288x64 [1] [0] [0] [1] [] []
  dot_S12288x12288_S12288x64_S12288x64_1_0_0_1_n_n_wf : DotDims.WF S12288x12288 S12288x64 S12288x64 [1] [0] [0] [1] [] []
  scatter_S512x64_S12288x1_S12288x64_1_0_0_1_wf : ScatterDims.WF S512x64 S12288x1 S12288x64 [1] [0] [0] 1
  dot_S512x64_S64x64_S512x64_1_0_0_1_n_n_wf : DotDims.WF S512x64 S64x64 S512x64 [1] [0] [0] [1] [] []
  dot_S512x64_S64x2_S512x2_1_0_0_1_n_n_wf : DotDims.WF S512x64 S64x2 S512x2 [1] [0] [0] [1] [] []

variable [Facts₀]

def gather_S4096x64_S12288x1_S12288x64_1_0_n_n_0_1_164 : GatherDims S4096x64 S12288x1 S12288x64 where
  offsetDims := [1]
  collapsedSliceDims := [0]
  operandBatchingDims := []
  startIndicesBatchingDims := []
  startIndexMap := [0]
  indexVectorDim := 1
  sliceSizes := ![1, 64]
  wf := gather_S4096x64_S12288x1_S12288x64_1_0_n_n_0_1_164_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def scatter_S512x64_S12288x1_S12288x64_1_0_0_1 : ScatterDims S512x64 S12288x1 S12288x64 where
  updateWindowDims := [1]
  insertedWindowDims := [0]
  scatterDimsToOperandDims := [0]
  indexVectorDim := 1
  wf := scatter_S512x64_S12288x1_S12288x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KB.Args.lean ====
import proofs.«138717_j6734508720258_1_alg».proof.Proof.Gen.Kernel.Launch

namespace Cert.Kernel.Hand

open Cert.Kernel Idealize.ShloMosaic

/-- The seven whole memrefs a layer kernel is called on: adjacency tile, contraction rows, residual rows, weight,
    bias row, output block, accumulator. -/
structure Bufs where
  a : Memref sig .tc .vmem S1024x1024 .f32
  ha : a.IsWhole
  xk : Memref sig .tc .vmem S1024x64 .f32
  hxk : xk.IsWhole
  xi : Memref sig .tc .vmem S1024x64 .f32
  hxi : xi.IsWhole
  w : Memref sig .tc .vmem S64x64 .f32
  hw : w.IsWhole
  b : Memref sig .tc .vmem S1x64 .f32
  hb : b.IsWhole
  o : Memref sig .tc .vmem S1024x64 .f32
  ho : o.IsWhole
  acc : Memref sig .tc .vmem S1024x64 .f32
  hacc : acc.IsWhole

/-- The five input blocks of one grid point. -/
structure Ins (F : FTy → Type) where
  a : Vec F S1024x1024 .f32
  xk : Vec F S1024x64 .f32
  xi : Vec F S1024x64 .f32
  w : Vec F S64x64 .f32
  b : Vec F S1x64 .f32

end Cert.Kernel.Hand
-- ==== Proof.KB.R0.Runs.lean ====
import proofs.«138717_j6734508720258_1_alg».proof.Proof.KB.Args
import proofs.«138717_j6734508720258_1_alg».proof.Proof.Gen.Kernel.Skeleton
import proofs.«138717_j6734508720258_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0 : ∀ w : Fin cfg0.W, w ≠ 5 → ∀ t : Fin cfg0.N, cfg0.idle w (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

theorem liveAt0_5 : ∀ t : Fin cfg0.N, cond0_1 (grid0.coords t) → cfg0.idle 5 (grid0.coords t) = false := by decide +kernel

abbrev VO0_5 : View sig .tc .vmem S1024x64 .f32 := (Memref.whole cc0_stg5_0 : Memref sig .tc .vmem S1024x64 .f32).view

abbrev scM0_0 : Memref sig .tc .vmem S1024x64 .f32 := Memref.whole cc0_scratch0
abbrev VS0_0 : View sig .tc .vmem S1024x64 .f32 := scM0_0.view

/-- The memrefs the body is called on at point t, and its input blocks there. -/
abbrev bufs0 (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    scM0_0, Memref.isWhole_whole _⟩
abbrev ins0 (c : Dev nD) (t : Fin cfg0.N) : Ins F :=
  ⟨iblk0 V c 0 t, iblk0 V c 1 t, iblk0 V c 2 t, iblk0 V c 3 t, iblk0 V c 4 t⟩

/-- What the body does at grid coordinates i, the inputs at x and the accumulator at xs: the inputs are left as they
    were, the accumulator is overwritten entirely, and so is the output block when k = 11. -/
structure Run0 (c : Dev nD) (i : grid0.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc0__layer_kernel i m.a m.ha m.xk m.hxk m.xi m.hxi m.w m.hw m.b m.hb m.o m.ho m.acc m.hacc) K
  covS : ∀ y : S1024x64.Idx, ∃ pc ∈ LS, y ∈ pc.1.set
  covO : cond0_1 i → ∀ y : S1024x64.Idx, ∃ pc ∈ L5, y ∈ pc.1.set

end Cert.Kernel.Hand

end
-- ==== Proof.KB.R0.RunA.lean ====
import proofs.«138717_j6734508720258_1_alg».proof.Proof.KB.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_A (c : Dev nD) (i : grid0.Coords) (m : Bufs) (hc0 : cond0_0 i) (hc1 : ¬cond0_1 i) (x : Ins F) (xs : Vec F S1024x64 .f32) :
    Run0 c i m x xs := by
  refine { L5 := [], LS := ?_, run := fun xo E K => ?run, covS := ?cov, covO := fun h => absurd h hc1 }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R0.RunB.lean ====
import proofs.«138717_j6734508720258_1_alg».proof.Proof.KB.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_B (c : Dev nD) (i : grid0.Coords) (m : Bufs) (hc0 : ¬cond0_0 i) (hc1 : ¬cond0_1 i) (x : Ins F) (xs : Vec F S1024x64 .f32) :
    Run0 c i m x xs := by
  refine { L5 := [], LS := ?_, run := fun xo E K => ?run, covS := ?cov, covO := fun h => absurd h hc1 }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R0.RunC.lean ====
import proofs.«138717_j6734508720258_1_alg».proof.Proof.KB.R0.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_C (c : Dev nD) (i : grid0.Coords) (m : Bufs) (hc0 : ¬cond0_0 i) (hc1 : cond0_1 i) (x : Ins F) (xs : Vec F S1024x64 .f32) :
    Run0 c i m x xs := by
  refine { L5 := ?_, LS := ?_, run := fun xo E K => ?run, covS := ?cov, covO := fun _ => ?covo }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.Kernel.Hand

end
-- ==== Proof.Shares.lean ====
import Idealize.ShloMosaic.Lib.Pipeline.Launch

noncomputable section

namespace Cert.Shares

open Idealize.SL Idealize.SL.RA Idealize.ShloMosaic
open scoped Idealize.SL.RA.PCS

abbrev qL : PosShare TreeShare := fullShare.left
abbrev qR : PosShare TreeShare := fullShare.right

theorem full_mem_halves : fullShare ∈ qL ·? qR := PosShare.mem_left_op_right fullShare

def qWin : Fin 6 → PosShare TreeShare := fun
  | ⟨0, _⟩ => fullShare | ⟨1, _⟩ => qL | ⟨2, _⟩ => qR | ⟨3, _⟩ => fullShare | ⟨4, _⟩ => fullShare | ⟨5, _⟩ => fullShare
  | ⟨_ + 6, h⟩ => absurd h (Nat.not_lt.2 (Nat.le_add_left _ _))

end Cert.Shares

end
-- ==== Proof.KB.R0.Body.lean ====
import proofs.«138717_j6734508720258_1_alg».proof.Proof.KB.R0.RunA
import proofs.«138717_j6734508720258_1_alg».proof.Proof.KB.R0.RunB
import proofs.«138717_j6734508720258_1_alg».proof.Proof.KB.R0.RunC
import proofs.«138717_j6734508720258_1_alg».proof.Proof.Shares

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt0 {c : Dev nD} {i : grid0.Coords} {m : Bufs} {x : Ins F} {xs : Vec F S1024x64 .f32} (r : Run0 c i m x xs) : Vec F S1024x64 .f32 :=
  VO0_5.read (Elt F) (VO0_5.writes (Elt F) VO0_5.junk r.L5)
def accAt0 {c : Dev nD} {i : grid0.Coords} {m : Bufs} {x : Ins F} {xs : Vec F S1024x64 .f32} (r : Run0 c i m x xs) : Vec F S1024x64 .f32 :=
  VS0_0.read (Elt F) (VS0_0.writes (Elt F) VS0_0.junk r.LS)

/-- The body's run at point t, by the case of t mod 12. -/
def runAt0 (c : Dev nD) (t : Fin cfg0.N) (xs : Vec F S1024x64 .f32) : Run0 c (grid0.coords t) (bufs0 t) (ins0 V c t) xs :=
  if h0 : t.val % 12 = 0 then kernelRun0_A c _ _ ((hcond0_0 t).mpr h0) (fun h => by have := (hcond0_1 t).mp h; omega) _ xs
  else if h1 : t.val % 12 = 11 then kernelRun0_C c _ _ (fun h => h0 ((hcond0_0 t).mp h)) ((hcond0_1 t).mpr h1) _ xs
  else kernelRun0_B c _ _ (fun h => h0 ((hcond0_0 t).mp h)) (fun h => h1 ((hcond0_1 t).mp h)) _ xs

/-- Only a point with k = 11 stores into the output block. -/
theorem runAt0_L5 (c : Dev nD) (t : Fin cfg0.N) (h1 : ¬t.val % 12 = 11) (xs : Vec F S1024x64 .f32) : (runAt0 V c t xs).L5 = [] := by
  unfold runAt0
  by_cases h0 : t.val % 12 = 0
  · rw [dif_pos h0]; rfl
  · rw [dif_neg h0, dif_neg h1]; rfl

/-- Where the accumulator is reset, what the run leaves does not depend on what the accumulator held. -/
theorem runAt0_reset (c : Dev nD) (t : Fin cfg0.N) (h0 : t.val % 12 = 0) (xs xs' : Vec F S1024x64 .f32) :
    (outAt0 (runAt0 V c t xs), accAt0 (runAt0 V c t xs)) = (outAt0 (runAt0 V c t xs'), accAt0 (runAt0 V c t xs')) := by
  unfold runAt0; simp only [dif_pos h0]; rfl

/-- Output block and accumulator after the body at position n, the accumulator found at what position n - 1 left
    (before the first point, where it is reset, at the zero block). -/
def outsAt0 (c : Dev nD) : (n : ℕ) → n < cfg0.N → Vec F S1024x64 .f32 × Vec F S1024x64 .f32
  | 0, hn => (outAt0 (runAt0 V c ⟨0, hn⟩ k0_pay1), accAt0 (runAt0 V c ⟨0, hn⟩ k0_pay1))
  | n + 1, hn => (outAt0 (runAt0 V c ⟨n + 1, hn⟩ (outsAt0 c n (Nat.lt_of_succ_lt hn)).2), accAt0 (runAt0 V c ⟨n + 1, hn⟩ (outsAt0 c n (Nat.lt_of_succ_lt hn)).2))

/-- What the point before t left in the accumulator. -/
abbrev prev0 (c : Dev nD) (t : Fin cfg0.N) : Vec F S1024x64 .f32 :=
  (outsAt0 V c (t.val - 1) (Nat.lt_of_le_of_lt (Nat.sub_le _ _) t.isLt)).2

theorem outsAt0_eq (c : Dev nD) (t : Fin cfg0.N) (d : Vec F S1024x64 .f32) (hd : t.val ≠ 0 → d = prev0 V c t) :
    outsAt0 V c t.val t.isLt = (outAt0 (runAt0 V c t d), accAt0 (runAt0 V c t d)) := by
  obtain ⟨n, hn⟩ := t
  cases n with
  | zero => exact runAt0_reset V c ⟨0, hn⟩ (Nat.zero_mod _) _ _
  | succ n => rw [hd (Nat.succ_ne_zero n)]; rfl

def Others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem PhiA0_eq (c : Dev nD) :
    (Pipeline.ΦA spec0 c : sProp 𝕄)
      = iprop(iprop((∃ d, owns (c : Thread nD τ) scM0_0 fullShare d) ∗ Others0 c) ∗ (∃ r, prngReg c r)) := by
  unfold Pipeline.ΦA Pipeline.scopedRest Others0
  rw [bigSep_erase (i := cc0_scratch0) (by decide)]
  simp only [scM0_0, owns_whole]; try rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 c) ∗ (∃ r, prngReg c r))

theorem PhiS0_succ (c : Dev nD) (n : ℕ) (hn : n < cfg0.N) :
    PhiS0 V c (n + 1) hn = iprop(iprop(owns (c : Thread nD τ) scM0_0 fullShare ((outsAt0 V c n hn).2) ∗ Others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Others0 c) ∗ (∃ r, prngReg c r)) := by
  cases n with
  | zero => exact absurd rfl hz
  | succ n => rfl

/-- The invariant hands out the accumulator at contents d: past the first position what the point before left. -/
theorem PhiS0_acc (c : Dev nD) (n : ℕ) (h : n ≤ cfg0.N) (h' : n - 1 < cfg0.N) :
    PhiS0 V c n h ⊢ iprop(iprop((∃ d, ⌜n ≠ 0 → d = (outsAt0 V c (n - 1) h').2⌝ ∗ owns (c : Thread nD τ) scM0_0 fullShare d) ∗ Others0 c) ∗ (∃ r, prngReg c r)) := by
  cases n with
  | zero =>
    rw [show PhiS0 V c 0 h = _ from PhiA0_eq c]
    iintro ⟨⟨⟨%d, HS0⟩, Hoth⟩, Hg⟩
    iframe Hoth Hg
    iexists d; isplitr; · ipureintro; exact fun h => absurd rfl h
    iexact HS0
  | succ n =>
    rw [PhiS0_succ]
    iintro ⟨⟨HS0, Hoth⟩, Hg⟩
    iframe Hoth Hg
    iexists _; isplitr
    swap; · iexact HS0
    ipureintro; exact fun _ => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q := Cert.Shares.qWin
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = (ins0 V c t).a :=
  ((dat0 V c).before_in_eq_fetched 0 rfl (fun _ => rfl) (fun _ _ _ => rfl) (fun _ => rfl) t d).trans rfl
theorem before0_1 (c : Dev nD) (t : Fin cfg0.N) (d) : (dat0 V c).before 1 t d = (ins0 V c t).xk :=
  ((dat0 V c).before_in_eq_fetched 1 rfl (fun _ => rfl) (fun _ _ _ => rfl) (fun _ => rfl) t d).trans rfl
theorem before0_2 (c : Dev nD) (t : Fin cfg0.N) (d) : (dat0 V c).before 2 t d = (ins0 V c t).xi :=
  ((dat0 V c).before_in_eq_fetched 2 rfl (fun _ => rfl) (fun _ _ _ => rfl) (fun _ => rfl) t d).trans rfl
theorem before0_3 (c : Dev nD) (t : Fin cfg0.N) (d) : (dat0 V c).before 3 t d = (ins0 V c t).w :=
  ((dat0 V c).before_in_eq_fetched 3 rfl (fun _ => rfl) (fun _ _ _ => rfl) (fun _ => rfl) t d).trans rfl
theorem before0_4 (c : Dev nD) (t : Fin cfg0.N) (d) : (dat0 V c).before 4 t d = (ins0 V c t).b :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (bufs0 t).a fullShare ((dat0 V c).before 0 t d))
    ∗ (∃ d, owns (c : Thread nD τ) (bufs0 t).xk fullShare ((dat0 V c).before 1 t d))
    ∗ (∃ d, owns (c : Thread nD τ) (bufs0 t).xi fullShare ((dat0 V c).before 2 t d))
    ∗ (∃ d, owns (c : Thread nD τ) (bufs0 t).w fullShare ((dat0 V c).before 3 t d))
    ∗ (∃ d, owns (c : Thread nD τ) (bufs0 t).b fullShare ((dat0 V c).before 4 t d))
    ∗ (∃ d, owns (c : Thread nD τ) (bufs0 t).o fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (bufs0 t).a fullShare (ins0 V c t).a := by
  unfold Dat.leavesExact; rw [liveAt0 0 (by decide) t]; (try rfl)
theorem leaves0_1 (c : Dev nD) (t : Fin cfg0.N) : (dat0 V c).leavesExact 1 t = owns (c : Thread nD τ) (bufs0 t).xk fullShare (ins0 V c t).xk := by
  unfold Dat.leavesExact; rw [liveAt0 1 (by decide) t]; (try rfl)
theorem leaves0_2 (c : Dev nD) (t : Fin cfg0.N) : (dat0 V c).leavesExact 2 t = owns (c : Thread nD τ) (bufs0 t).xi fullShare (ins0 V c t).xi := by
  unfold Dat.leavesExact; rw [liveAt0 2 (by decide) t]; (try rfl)
theorem leaves0_3 (c : Dev nD) (t : Fin cfg0.N) : (dat0 V c).leavesExact 3 t = owns (c : Thread nD τ) (bufs0 t).w fullShare (ins0 V c t).w := by
  unfold Dat.leavesExact; rw [liveAt0 3 (by decide) t]; (try rfl)
theorem leaves0_4 (c : Dev nD) (t : Fin cfg0.N) : (dat0 V c).leavesExact 4 t = owns (c : Thread nD τ) (bufs0 t).b fullShare (ins0 V c t).b := by
  unfold Dat.leavesExact; rw [liveAt0 4 (by decide) t]; (try rfl)

end Cert.Kernel.Hand

end
-- ==== Proof.KB.R0.Obl.lean ====
import proofs.«138717_j6734508720258_1_alg».proof.Proof.KB.R0.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, PhiS0_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS0_acc V c t.val (Nat.le_of_lt t.isLt) (Nat.lt_of_le_of_lt (Nat.sub_le _ _) t.isLt)) $$ Hphi
  icases Hphi with ⟨⟨⟨%d, %hd, HS0⟩, Hoth⟩, Hg⟩
  rw [outsAt0_eq V c t d hd]; dsimp only
  iapply ((runAt0 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt0 owns; iexists _; isplitr
    swap; · iexact HS0
    ipureintro; exact View.read_writes_of_cover _ _ _ _ _ (runAt0 V c t d).covS
  by_cases h1 : t.val % 12 = 11
  · rw [show (dat0 V c).leavesExact 5 t = owns (c : Thread nD τ) (bufs0 t).o fullShare ((dat0 V c).after 5 t) from by
      unfold Dat.leavesExact; rw [liveAt0_5 t ((hcond0_1 t).mpr h1)], after0_5, outsAt0_eq V c t d hd]
    dsimp only; unfold outAt0 owns; iexists _; isplitr
    swap; · iexact H5
    ipureintro; exact View.read_writes_of_cover _ _ _ _ _ ((runAt0 V c t d).covO ((hcond0_1 t).mpr h1))
  · rw [Dat.leavesExact_idle (dat0 V c) 5 t (idleAt0_5 t (fun h => h1 ((hcond0_1 t).mp h))) (noFlush0_5 t (fun h => h1 ((hcond0_1 t).mp h)))]
    rw [runAt0_L5 V c t h1, View.writes_nil]
    iexists d5; unfold owns; iexists e5; isplitr; · ipureintro; exact he5
    iexact H5

theorem body_obligation0 (c : Dev nD) : BodyObligation (dat0 (F := F) V c) (defs₀ (F := F)) Variants.none () Set.univ := fun t => by
  rw [bigSep_W0, bigSep_W0]
  exact sound_body0 V c t

/-- After the last point the accumulator's contents are forgotten. -/
theorem hout0 (c : Dev nD) : (dat0 V c).Φ (Fin.last cfg0.N) ⊢ Pipeline.ΦA spec0 c := by
  rw [PhiA0_eq]
  refine (PhiS0_acc V c (Fin.last cfg0.N).val (Nat.le_of_lt_succ (Fin.last cfg0.N).isLt) (by rw [Fin.val_last]; have : cfg0.N = 144 := N_0; omega)).trans ?_
  iintro ⟨⟨⟨%d, -, HS0⟩, Hoth⟩, Hg⟩
  iframe Hoth Hg
  iexists d; iexact HS0

end Cert.Kernel.Hand

end
-- ==== Proof.KB.R1.Runs.lean ====
import proofs.«138717_j6734508720258_1_alg».proof.Proof.KB.Args
import proofs.«138717_j6734508720258_1_alg».proof.Proof.Gen.Kernel.Skeleton
import proofs.«138717_j6734508720258_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

theorem liveAt1 : ∀ w : Fin cfg1.W, w ≠ 5 → ∀ t : Fin cfg1.N, cfg1.idle w (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

abbrev VO1_5 : View sig .tc .vmem S1024x64 .f32 := (Memref.whole cc1_stg5_0 : Memref sig .tc .vmem S1024x64 .f32).view

abbrev scM1_0 : Memref sig .tc .vmem S1024x64 .f32 := Memref.whole cc1_scratch0
abbrev VS1_0 : View sig .tc .vmem S1024x64 .f32 := scM1_0.view

/-- The memrefs the body is called on at point t, and its input blocks there. -/
abbrev bufs1 (t : Fin cfg1.N) : Bufs :=
  ⟨win1_0.stage (cfg1.slots t 0), hstage1_0 ((cfg1.slots t 0).cast nbuf1_0), win1_1.stage (cfg1.slots t 1), hstage1_1 ((cfg1.slots t 1).cast nbuf1_1),
    win1_2.stage (cfg1.slots t 2), hstage1_2 ((cfg1.slots t 2).cast nbuf1_2), win1_3.stage (cfg1.slots t 3), hstage1_3 ((cfg1.slots t 3).cast nbuf1_3),
    win1_4.stage (cfg1.slots t 4), hstage1_4 ((cfg1.slots t 4).cast nbuf1_4), win1_5.stage (cfg1.slots t 5), hstage1_5 ((cfg1.slots t 5).cast nbuf1_5),
    scM1_0, Memref.isWhole_whole _⟩
abbrev ins1 (c : Dev nD) (t : Fin cfg1.N) : Ins F :=
  ⟨iblk1 V c 0 t, iblk1 V c 1 t, iblk1 V c 2 t, iblk1 V c 3 t, iblk1 V c 4 t⟩

/-- What the body does at grid coordinates i, the inputs at x and the accumulator at xs: the inputs are left as they
    were, the accumulator is overwritten entirely, and so is the output block when k = 11. -/
structure Run1 (c : Dev nD) (i : grid1.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc1__layer_kernel i m.a m.ha m.xk m.hxk m.xi m.hxi m.w m.hw m.b m.hb m.o m.ho m.acc m.hacc) K
  covS : ∀ y : S1024x64.Idx, ∃ pc ∈ LS, y ∈ pc.1.set
  covO : cond1_1 i → ∀ y : S1024x64.Idx, ∃ pc ∈ L5, y ∈ pc.1.set

end Cert.Kernel.Hand

end
-- ==== Proof.KB.R1.RunA.lean ====
import proofs.«138717_j6734508720258_1_alg».proof.Proof.KB.R1.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_A (c : Dev nD) (i : grid1.Coords) (m : Bufs) (hc0 : cond1_0 i) (hc1 : ¬cond1_1 i) (x : Ins F) (xs : Vec F S1024x64 .f32) :
    Run1 c i m x xs := by
  refine { L5 := [], LS := ?_, run := fun xo E K => ?run, covS := ?cov, covO := fun h => absurd h hc1 }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R1.RunB.lean ====
import proofs.«138717_j6734508720258_1_alg».proof.Proof.KB.R1.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_B (c : Dev nD) (i : grid1.Coords) (m : Bufs) (hc0 : ¬cond1_0 i) (hc1 : ¬cond1_1 i) (x : Ins F) (xs : Vec F S1024x64 .f32) :
    Run1 c i m x xs := by
  refine { L5 := [], LS := ?_, run := fun xo E K => ?run, covS := ?cov, covO := fun h => absurd h hc1 }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R1.RunC.lean ====
import proofs.«138717_j6734508720258_1_alg».proof.Proof.KB.R1.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_C (c : Dev nD) (i : grid1.Coords) (m : Bufs) (hc0 : ¬cond1_0 i) (hc1 : cond1_1 i) (x : Ins F) (xs : Vec F S1024x64 .f32) :
    Run1 c i m x xs := by
  refine { L5 := ?_, LS := ?_, run := fun xo E K => ?run, covS := ?cov, covO := fun _ => ?covo }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.Kernel.Hand

end
-- ==== Proof.KB.R1.Body.lean ====
import proofs.«138717_j6734508720258_1_alg».proof.Proof.KB.R1.RunA
import proofs.«138717_j6734508720258_1_alg».proof.Proof.KB.R1.RunB
import proofs.«138717_j6734508720258_1_alg».proof.Proof.KB.R1.RunC
import proofs.«138717_j6734508720258_1_alg».proof.Proof.Shares

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt1 {c : Dev nD} {i : grid1.Coords} {m : Bufs} {x : Ins F} {xs : Vec F S1024x64 .f32} (r : Run1 c i m x xs) : Vec F S1024x64 .f32 :=
  VO1_5.read (Elt F) (VO1_5.writes (Elt F) VO1_5.junk r.L5)
def accAt1 {c : Dev nD} {i : grid1.Coords} {m : Bufs} {x : Ins F} {xs : Vec F S1024x64 .f32} (r : Run1 c i m x xs) : Vec F S1024x64 .f32 :=
  VS1_0.read (Elt F) (VS1_0.writes (Elt F) VS1_0.junk r.LS)

/-- The body's run at point t, by the case of t mod 12. -/
def runAt1 (c : Dev nD) (t : Fin cfg1.N) (xs : Vec F S1024x64 .f32) : Run1 c (grid1.coords t) (bufs1 t) (ins1 V c t) xs :=
  if h0 : t.val % 12 = 0 then kernelRun1_A c _ _ ((hcond1_0 t).mpr h0) (fun h => by have := (hcond1_1 t).mp h; omega) _ xs
  else if h1 : t.val % 12 = 11 then kernelRun1_C c _ _ (fun h => h0 ((hcond1_0 t).mp h)) ((hcond1_1 t).mpr h1) _ xs
  else kernelRun1_B c _ _ (fun h => h0 ((hcond1_0 t).mp h)) (fun h => h1 ((hcond1_1 t).mp h)) _ xs

/-- Only a point with k = 11 stores into the output block. -/
theorem runAt1_L5 (c : Dev nD) (t : Fin cfg1.N) (h1 : ¬t.val % 12 = 11) (xs : Vec F S1024x64 .f32) : (runAt1 V c t xs).L5 = [] := by
  unfold runAt1
  by_cases h0 : t.val % 12 = 0
  · rw [dif_pos h0]; rfl
  · rw [dif_neg h0, dif_neg h1]; rfl

/-- Where the accumulator is reset, what the run leaves does not depend on what the accumulator held. -/
theorem runAt1_reset (c : Dev nD) (t : Fin cfg1.N) (h0 : t.val % 12 = 0) (xs xs' : Vec F S1024x64 .f32) :
    (outAt1 (runAt1 V c t xs), accAt1 (runAt1 V c t xs)) = (outAt1 (runAt1 V c t xs'), accAt1 (runAt1 V c t xs')) := by
  unfold runAt1; simp only [dif_pos h0]; rfl

/-- Output block and accumulator after the body at position n, the accumulator found at what position n - 1 left
    (before the first point, where it is reset, at the zero block). -/
def outsAt1 (c : Dev nD) : (n : ℕ) → n < cfg1.N → Vec F S1024x64 .f32 × Vec F S1024x64 .f32
  | 0, hn => (outAt1 (runAt1 V c ⟨0, hn⟩ k1_pay1), accAt1 (runAt1 V c ⟨0, hn⟩ k1_pay1))
  | n + 1, hn => (outAt1 (runAt1 V c ⟨n + 1, hn⟩ (outsAt1 c n (Nat.lt_of_succ_lt hn)).2), accAt1 (runAt1 V c ⟨n + 1, hn⟩ (outsAt1 c n (Nat.lt_of_succ_lt hn)).2))

/-- What the point before t left in the accumulator. -/
abbrev prev1 (c : Dev nD) (t : Fin cfg1.N) : Vec F S1024x64 .f32 :=
  (outsAt1 V c (t.val - 1) (Nat.lt_of_le_of_lt (Nat.sub_le _ _) t.isLt)).2

theorem outsAt1_eq (c : Dev nD) (t : Fin cfg1.N) (d : Vec F S1024x64 .f32) (hd : t.val ≠ 0 → d = prev1 V c t) :
    outsAt1 V c t.val t.isLt = (outAt1 (runAt1 V c t d), accAt1 (runAt1 V c t d)) := by
  obtain ⟨n, hn⟩ := t
  cases n with
  | zero => exact runAt1_reset V c ⟨0, hn⟩ (Nat.zero_mod _) _ _
  | succ n => rw [hd (Nat.succ_ne_zero n)]; rfl

def Others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem PhiA1_eq (c : Dev nD) :
    (Pipeline.ΦA spec1 c : sProp 𝕄)
      = iprop(iprop((∃ d, owns (c : Thread nD τ) scM1_0 fullShare d) ∗ Others1 c) ∗ (∃ r, prngReg c r)) := by
  unfold Pipeline.ΦA Pipeline.scopedRest Others1
  rw [bigSep_erase (i := cc1_scratch0) (by decide)]
  simp only [scM1_0, owns_whole]; try rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Others1 c) ∗ (∃ r, prngReg c r))

theorem PhiS1_succ (c : Dev nD) (n : ℕ) (hn : n < cfg1.N) :
    PhiS1 V c (n + 1) hn = iprop(iprop(owns (c : Thread nD τ) scM1_0 fullShare ((outsAt1 V c n hn).2) ∗ Others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Others1 c) ∗ (∃ r, prngReg c r)) := by
  cases n with
  | zero => exact absurd rfl hz
  | succ n => rfl

/-- The invariant hands out the accumulator at contents d: past the first position what the point before left. -/
theorem PhiS1_acc (c : Dev nD) (n : ℕ) (h : n ≤ cfg1.N) (h' : n - 1 < cfg1.N) :
    PhiS1 V c n h ⊢ iprop(iprop((∃ d, ⌜n ≠ 0 → d = (outsAt1 V c (n - 1) h').2⌝ ∗ owns (c : Thread nD τ) scM1_0 fullShare d) ∗ Others1 c) ∗ (∃ r, prngReg c r)) := by
  cases n with
  | zero =>
    rw [show PhiS1 V c 0 h = _ from PhiA1_eq c]
    iintro ⟨⟨⟨%d, HS0⟩, Hoth⟩, Hg⟩
    iframe Hoth Hg
    iexists d; isplitr; · ipureintro; exact fun h => absurd rfl h
    iexact HS0
  | succ n =>
    rw [PhiS1_succ]
    iintro ⟨⟨HS0, Hoth⟩, Hg⟩
    iframe Hoth Hg
    iexists _; isplitr
    swap; · iexact HS0
    ipureintro; exact fun _ => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := Cert.Shares.qWin
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = (ins1 V c t).a :=
  ((dat1 V c).before_in_eq_fetched 0 rfl (fun _ => rfl) (fun _ _ _ => rfl) (fun _ => rfl) t d).trans rfl
theorem before1_1 (c : Dev nD) (t : Fin cfg1.N) (d) : (dat1 V c).before 1 t d = (ins1 V c t).xk :=
  ((dat1 V c).before_in_eq_fetched 1 rfl (fun _ => rfl) (fun _ _ _ => rfl) (fun _ => rfl) t d).trans rfl
theorem before1_2 (c : Dev nD) (t : Fin cfg1.N) (d) : (dat1 V c).before 2 t d = (ins1 V c t).xi :=
  ((dat1 V c).before_in_eq_fetched 2 rfl (fun _ => rfl) (fun _ _ _ => rfl) (fun _ => rfl) t d).trans rfl
theorem before1_3 (c : Dev nD) (t : Fin cfg1.N) (d) : (dat1 V c).before 3 t d = (ins1 V c t).w :=
  ((dat1 V c).before_in_eq_fetched 3 rfl (fun _ => rfl) (fun _ _ _ => rfl) (fun _ => rfl) t d).trans rfl
theorem before1_4 (c : Dev nD) (t : Fin cfg1.N) (d) : (dat1 V c).before 4 t d = (ins1 V c t).b :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (bufs1 t).a fullShare ((dat1 V c).before 0 t d))
    ∗ (∃ d, owns (c : Thread nD τ) (bufs1 t).xk fullShare ((dat1 V c).before 1 t d))
    ∗ (∃ d, owns (c : Thread nD τ) (bufs1 t).xi fullShare ((dat1 V c).before 2 t d))
    ∗ (∃ d, owns (c : Thread nD τ) (bufs1 t).w fullShare ((dat1 V c).before 3 t d))
    ∗ (∃ d, owns (c : Thread nD τ) (bufs1 t).b fullShare ((dat1 V c).before 4 t d))
    ∗ (∃ d, owns (c : Thread nD τ) (bufs1 t).o fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (bufs1 t).a fullShare (ins1 V c t).a := by
  unfold Dat.leavesExact; rw [liveAt1 0 (by decide) t]; (try rfl)
theorem leaves1_1 (c : Dev nD) (t : Fin cfg1.N) : (dat1 V c).leavesExact 1 t = owns (c : Thread nD τ) (bufs1 t).xk fullShare (ins1 V c t).xk := by
  unfold Dat.leavesExact; rw [liveAt1 1 (by decide) t]; (try rfl)
theorem leaves1_2 (c : Dev nD) (t : Fin cfg1.N) : (dat1 V c).leavesExact 2 t = owns (c : Thread nD τ) (bufs1 t).xi fullShare (ins1 V c t).xi := by
  unfold Dat.leavesExact; rw [liveAt1 2 (by decide) t]; (try rfl)
theorem leaves1_3 (c : Dev nD) (t : Fin cfg1.N) : (dat1 V c).leavesExact 3 t = owns (c : Thread nD τ) (bufs1 t).w fullShare (ins1 V c t).w := by
  unfold Dat.leavesExact; rw [liveAt1 3 (by decide) t]; (try rfl)
theorem leaves1_4 (c : Dev nD) (t : Fin cfg1.N) : (dat1 V c).leavesExact 4 t = owns (c : Thread nD τ) (bufs1 t).b fullShare (ins1 V c t).b := by
  unfold Dat.leavesExact; rw [liveAt1 4 (by decide) t]; (try rfl)

end Cert.Kernel.Hand

end
-- ==== Proof.KB.R1.Obl.lean ====
import proofs.«138717_j6734508720258_1_alg».proof.Proof.KB.R1.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, PhiS1_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS1_acc V c t.val (Nat.le_of_lt t.isLt) (Nat.lt_of_le_of_lt (Nat.sub_le _ _) t.isLt)) $$ Hphi
  icases Hphi with ⟨⟨⟨%d, %hd, HS0⟩, Hoth⟩, Hg⟩
  rw [outsAt1_eq V c t d hd]; dsimp only
  iapply ((runAt1 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt1 owns; iexists _; isplitr
    swap; · iexact HS0
    ipureintro; exact View.read_writes_of_cover _ _ _ _ _ (runAt1 V c t d).covS
  by_cases h1 : t.val % 12 = 11
  · rw [show (dat1 V c).leavesExact 5 t = owns (c : Thread nD τ) (bufs1 t).o fullShare ((dat1 V c).after 5 t) from by
      unfold Dat.leavesExact; rw [liveAt1_5 t ((hcond1_1 t).mpr h1)], after1_5, outsAt1_eq V c t d hd]
    dsimp only; unfold outAt1 owns; iexists _; isplitr
    swap; · iexact H5
    ipureintro; exact View.read_writes_of_cover _ _ _ _ _ ((runAt1 V c t d).covO ((hcond1_1 t).mpr h1))
  · rw [Dat.leavesExact_idle (dat1 V c) 5 t (idleAt1_5 t (fun h => h1 ((hcond1_1 t).mp h))) (noFlush1_5 t (fun h => h1 ((hcond1_1 t).mp h)))]
    rw [runAt1_L5 V c t h1, View.writes_nil]
    iexists d5; unfold owns; iexists e5; isplitr; · ipureintro; exact he5
    iexact H5

theorem body_obligation1 (c : Dev nD) : BodyObligation (dat1 (F := F) V c) (defs₀ (F := F)) Variants.none () Set.univ := fun t => by
  rw [bigSep_W1, bigSep_W1]
  exact sound_body1 V c t

/-- After the last point the accumulator's contents are forgotten. -/
theorem hout1 (c : Dev nD) : (dat1 V c).Φ (Fin.last cfg1.N) ⊢ Pipeline.ΦA spec1 c := by
  rw [PhiA1_eq]
  refine (PhiS1_acc V c (Fin.last cfg1.N).val (Nat.le_of_lt_succ (Fin.last cfg1.N).isLt) (by rw [Fin.val_last]; have : cfg1.N = 144 := N_1; omega)).trans ?_
  iintro ⟨⟨⟨%d, -, HS0⟩, Hoth⟩, Hg⟩
  iframe Hoth Hg
  iexists d; iexact HS0

end Cert.Kernel.Hand

end
-- ==== Proof.KB.R2.Runs.lean ====
import proofs.«138717_j6734508720258_1_alg».proof.Proof.KB.Args
import proofs.«138717_j6734508720258_1_alg».proof.Proof.Gen.Kernel.Skeleton
import proofs.«138717_j6734508720258_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

theorem liveAt2 : ∀ w : Fin cfg2.W, w ≠ 5 → ∀ t : Fin cfg2.N, cfg2.idle w (grid2.coords t) = false := by decide +kernel

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel

theorem liveAt2_5 : ∀ t : Fin cfg2.N, cond2_1 (grid2.coords t) → cfg2.idle 5 (grid2.coords t) = false := by decide +kernel

abbrev VO2_5 : View sig .tc .vmem S1024x64 .f32 := (Memref.whole cc2_stg5_0 : Memref sig .tc .vmem S1024x64 .f32).view

abbrev scM2_0 : Memref sig .tc .vmem S1024x64 .f32 := Memref.whole cc2_scratch0
abbrev VS2_0 : View sig .tc .vmem S1024x64 .f32 := scM2_0.view

/-- The memrefs the body is called on at point t, and its input blocks there. -/
abbrev bufs2 (t : Fin cfg2.N) : Bufs :=
  ⟨win2_0.stage (cfg2.slots t 0), hstage2_0 ((cfg2.slots t 0).cast nbuf2_0), win2_1.stage (cfg2.slots t 1), hstage2_1 ((cfg2.slots t 1).cast nbuf2_1),
    win2_2.stage (cfg2.slots t 2), hstage2_2 ((cfg2.slots t 2).cast nbuf2_2), win2_3.stage (cfg2.slots t 3), hstage2_3 ((cfg2.slots t 3).cast nbuf2_3),
    win2_4.stage (cfg2.slots t 4), hstage2_4 ((cfg2.slots t 4).cast nbuf2_4), win2_5.stage (cfg2.slots t 5), hstage2_5 ((cfg2.slots t 5).cast nbuf2_5),
    scM2_0, Memref.isWhole_whole _⟩
abbrev ins2 (c : Dev nD) (t : Fin cfg2.N) : Ins F :=
  ⟨iblk2 V c 0 t, iblk2 V c 1 t, iblk2 V c 2 t, iblk2 V c 3 t, iblk2 V c 4 t⟩

/-- What the body does at grid coordinates i, the inputs at x and the accumulator at xs: the inputs are left as they
    were, the accumulator is overwritten entirely, and so is the output block when k = 11. -/
structure Run2 (c : Dev nD) (i : grid2.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc2__layer_kernel i m.a m.ha m.xk m.hxk m.xi m.hxi m.w m.hw m.b m.hb m.o m.ho m.acc m.hacc) K
  covS : ∀ y : S1024x64.Idx, ∃ pc ∈ LS, y ∈ pc.1.set
  covO : cond2_1 i → ∀ y : S1024x64.Idx, ∃ pc ∈ L5, y ∈ pc.1.set

end Cert.Kernel.Hand

end
-- ==== Proof.KB.R2.RunA.lean ====
import proofs.«138717_j6734508720258_1_alg».proof.Proof.KB.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_A (c : Dev nD) (i : grid2.Coords) (m : Bufs) (hc0 : cond2_0 i) (hc1 : ¬cond2_1 i) (x : Ins F) (xs : Vec F S1024x64 .f32) :
    Run2 c i m x xs := by
  refine { L5 := [], LS := ?_, run := fun xo E K => ?run, covS := ?cov, covO := fun h => absurd h hc1 }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R2.RunB.lean ====
import proofs.«138717_j6734508720258_1_alg».proof.Proof.KB.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_B (c : Dev nD) (i : grid2.Coords) (m : Bufs) (hc0 : ¬cond2_0 i) (hc1 : ¬cond2_1 i) (x : Ins F) (xs : Vec F S1024x64 .f32) :
    Run2 c i m x xs := by
  refine { L5 := [], LS := ?_, run := fun xo E K => ?run, covS := ?cov, covO := fun h => absurd h hc1 }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.Kernel.Hand

end
-- ==== Proof.KB.R2.RunC.lean ====
import proofs.«138717_j6734508720258_1_alg».proof.Proof.KB.R2.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_C (c : Dev nD) (i : grid2.Coords) (m : Bufs) (hc0 : ¬cond2_0 i) (hc1 : cond2_1 i) (x : Ins F) (xs : Vec F S1024x64 .f32) :
    Run2 c i m x xs := by
  refine { L5 := ?_, LS := ?_, run := fun xo E K => ?run, covS := ?cov, covO := fun _ => ?covo }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.Kernel.Hand

end
-- ==== Proof.KB.R2.Body.lean ====
import proofs.«138717_j6734508720258_1_alg».proof.Proof.KB.R2.RunA
import proofs.«138717_j6734508720258_1_alg».proof.Proof.KB.R2.RunB
import proofs.«138717_j6734508720258_1_alg».proof.Proof.KB.R2.RunC
import proofs.«138717_j6734508720258_1_alg».proof.Proof.Shares

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt2 {c : Dev nD} {i : grid2.Coords} {m : Bufs} {x : Ins F} {xs : Vec F S1024x64 .f32} (r : Run2 c i m x xs) : Vec F S1024x64 .f32 :=
  VO2_5.read (Elt F) (VO2_5.writes (Elt F) VO2_5.junk r.L5)
def accAt2 {c : Dev nD} {i : grid2.Coords} {m : Bufs} {x : Ins F} {xs : Vec F S1024x64 .f32} (r : Run2 c i m x xs) : Vec F S1024x64 .f32 :=
  VS2_0.read (Elt F) (VS2_0.writes (Elt F) VS2_0.junk r.LS)

/-- The body's run at point t, by the case of t mod 12. -/
def runAt2 (c : Dev nD) (t : Fin cfg2.N) (xs : Vec F S1024x64 .f32) : Run2 c (grid2.coords t) (bufs2 t) (ins2 V c t) xs :=
  if h0 : t.val % 12 = 0 then kernelRun2_A c _ _ ((hcond2_0 t).mpr h0) (fun h => by have := (hcond2_1 t).mp h; omega) _ xs
  else if h1 : t.val % 12 = 11 then kernelRun2_C c _ _ (fun h => h0 ((hcond2_0 t).mp h)) ((hcond2_1 t).mpr h1) _ xs
  else kernelRun2_B c _ _ (fun h => h0 ((hcond2_0 t).mp h)) (fun h => h1 ((hcond2_1 t).mp h)) _ xs

/-- Only a point with k = 11 stores into the output block. -/
theorem runAt2_L5 (c : Dev nD) (t : Fin cfg2.N) (h1 : ¬t.val % 12 = 11) (xs : Vec F S1024x64 .f32) : (runAt2 V c t xs).L5 = [] := by
  unfold runAt2
  by_cases h0 : t.val % 12 = 0
  · rw [dif_pos h0]; rfl
  · rw [dif_neg h0, dif_neg h1]; rfl

/-- Where the accumulator is reset, what the run leaves does not depend on what the accumulator held. -/
theorem runAt2_reset (c : Dev nD) (t : Fin cfg2.N) (h0 : t.val % 12 = 0) (xs xs' : Vec F S1024x64 .f32) :
    (outAt2 (runAt2 V c t xs), accAt2 (runAt2 V c t xs)) = (outAt2 (runAt2 V c t xs'), accAt2 (runAt2 V c t xs')) := by
  unfold runAt2; simp only [dif_pos h0]; rfl

/-- Output block and accumulator after the body at position n, the accumulator found at what position n - 1 left
    (before the first point, where it is reset, at the zero block). -/
def outsAt2 (c : Dev nD) : (n : ℕ) → n < cfg2.N → Vec F S1024x64 .f32 × Vec F S1024x64 .f32
  | 0, hn => (outAt2 (runAt2 V c ⟨0, hn⟩ k2_pay1), accAt2 (runAt2 V c ⟨0, hn⟩ k2_pay1))
  | n + 1, hn => (outAt2 (runAt2 V c ⟨n + 1, hn⟩ (outsAt2 c n (Nat.lt_of_succ_lt hn)).2), accAt2 (runAt2 V c ⟨n + 1, hn⟩ (outsAt2 c n (Nat.lt_of_succ_lt hn)).2))

/-- What the point before t left in the accumulator. -/
abbrev prev2 (c : Dev nD) (t : Fin cfg2.N) : Vec F S1024x64 .f32 :=
  (outsAt2 V c (t.val - 1) (Nat.lt_of_le_of_lt (Nat.sub_le _ _) t.isLt)).2

theorem outsAt2_eq (c : Dev nD) (t : Fin cfg2.N) (d : Vec F S1024x64 .f32) (hd : t.val ≠ 0 → d = prev2 V c t) :
    outsAt2 V c t.val t.isLt = (outAt2 (runAt2 V c t d), accAt2 (runAt2 V c t d)) := by
  obtain ⟨n, hn⟩ := t
  cases n with
  | zero => exact runAt2_reset V c ⟨0, hn⟩ (Nat.zero_mod _) _ _
  | succ n => rw [hd (Nat.succ_ne_zero n)]; rfl

def Others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem PhiA2_eq (c : Dev nD) :
    (Pipeline.ΦA spec2 c : sProp 𝕄)
      = iprop(iprop((∃ d, owns (c : Thread nD τ) scM2_0 fullShare d) ∗ Others2 c) ∗ (∃ r, prngReg c r)) := by
  unfold Pipeline.ΦA Pipeline.scopedRest Others2
  rw [bigSep_erase (i := cc2_scratch0) (by decide)]
  simp only [scM2_0, owns_whole]; try rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Others2 c) ∗ (∃ r, prngReg c r))

theorem PhiS2_succ (c : Dev nD) (n : ℕ) (hn : n < cfg2.N) :
    PhiS2 V c (n + 1) hn = iprop(iprop(owns (c : Thread nD τ) scM2_0 fullShare ((outsAt2 V c n hn).2) ∗ Others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Others2 c) ∗ (∃ r, prngReg c r)) := by
  cases n with
  | zero => exact absurd rfl hz
  | succ n => rfl

/-- The invariant hands out the accumulator at contents d: past the first position what the point before left. -/
theorem PhiS2_acc (c : Dev nD) (n : ℕ) (h : n ≤ cfg2.N) (h' : n - 1 < cfg2.N) :
    PhiS2 V c n h ⊢ iprop(iprop((∃ d, ⌜n ≠ 0 → d = (outsAt2 V c (n - 1) h').2⌝ ∗ owns (c : Thread nD τ) scM2_0 fullShare d) ∗ Others2 c) ∗ (∃ r, prngReg c r)) := by
  cases n with
  | zero =>
    rw [show PhiS2 V c 0 h = _ from PhiA2_eq c]
    iintro ⟨⟨⟨%d, HS0⟩, Hoth⟩, Hg⟩
    iframe Hoth Hg
    iexists d; isplitr; · ipureintro; exact fun h => absurd rfl h
    iexact HS0
  | succ n =>
    rw [PhiS2_succ]
    iintro ⟨⟨HS0, Hoth⟩, Hg⟩
    iframe Hoth Hg
    iexists _; isplitr
    swap; · iexact HS0
    ipureintro; exact fun _ => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q := Cert.Shares.qWin
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = (ins2 V c t).a :=
  ((dat2 V c).before_in_eq_fetched 0 rfl (fun _ => rfl) (fun _ _ _ => rfl) (fun _ => rfl) t d).trans rfl
theorem before2_1 (c : Dev nD) (t : Fin cfg2.N) (d) : (dat2 V c).before 1 t d = (ins2 V c t).xk :=
  ((dat2 V c).before_in_eq_fetched 1 rfl (fun _ => rfl) (fun _ _ _ => rfl) (fun _ => rfl) t d).trans rfl
theorem before2_2 (c : Dev nD) (t : Fin cfg2.N) (d) : (dat2 V c).before 2 t d = (ins2 V c t).xi :=
  ((dat2 V c).before_in_eq_fetched 2 rfl (fun _ => rfl) (fun _ _ _ => rfl) (fun _ => rfl) t d).trans rfl
theorem before2_3 (c : Dev nD) (t : Fin cfg2.N) (d) : (dat2 V c).before 3 t d = (ins2 V c t).w :=
  ((dat2 V c).before_in_eq_fetched 3 rfl (fun _ => rfl) (fun _ _ _ => rfl) (fun _ => rfl) t d).trans rfl
theorem before2_4 (c : Dev nD) (t : Fin cfg2.N) (d) : (dat2 V c).before 4 t d = (ins2 V c t).b :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (bufs2 t).a fullShare ((dat2 V c).before 0 t d))
    ∗ (∃ d, owns (c : Thread nD τ) (bufs2 t).xk fullShare ((dat2 V c).before 1 t d))
    ∗ (∃ d, owns (c : Thread nD τ) (bufs2 t).xi fullShare ((dat2 V c).before 2 t d))
    ∗ (∃ d, owns (c : Thread nD τ) (bufs2 t).w fullShare ((dat2 V c).before 3 t d))
    ∗ (∃ d, owns (c : Thread nD τ) (bufs2 t).b fullShare ((dat2 V c).before 4 t d))
    ∗ (∃ d, owns (c : Thread nD τ) (bufs2 t).o fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (bufs2 t).a fullShare (ins2 V c t).a := by
  unfold Dat.leavesExact; rw [liveAt2 0 (by decide) t]; (try rfl)
theorem leaves2_1 (c : Dev nD) (t : Fin cfg2.N) : (dat2 V c).leavesExact 1 t = owns (c : Thread nD τ) (bufs2 t).xk fullShare (ins2 V c t).xk := by
  unfold Dat.leavesExact; rw [liveAt2 1 (by decide) t]; (try rfl)
theorem leaves2_2 (c : Dev nD) (t : Fin cfg2.N) : (dat2 V c).leavesExact 2 t = owns (c : Thread nD τ) (bufs2 t).xi fullShare (ins2 V c t).xi := by
  unfold Dat.leavesExact; rw [liveAt2 2 (by decide) t]; (try rfl)
theorem leaves2_3 (c : Dev nD) (t : Fin cfg2.N) : (dat2 V c).leavesExact 3 t = owns (c : Thread nD τ) (bufs2 t).w fullShare (ins2 V c t).w := by
  unfold Dat.leavesExact; rw [liveAt2 3 (by decide) t]; (try rfl)
theorem leaves2_4 (c : Dev nD) (t : Fin cfg2.N) : (dat2 V c).leavesExact 4 t = owns (c : Thread nD τ) (bufs2 t).b fullShare (ins2 V c t).b := by
  unfold Dat.leavesExact; rw [liveAt2 4 (by decide) t]; (try rfl)

end Cert.Kernel.Hand

end
-- ==== Proof.KB.R2.Obl.lean ====
import proofs.«138717_j6734508720258_1_alg».proof.Proof.KB.R2.Body

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, PhiS2_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS2_acc V c t.val (Nat.le_of_lt t.isLt) (Nat.lt_of_le_of_lt (Nat.sub_le _ _) t.isLt)) $$ Hphi
  icases Hphi with ⟨⟨⟨%d, %hd, HS0⟩, Hoth⟩, Hg⟩
  rw [outsAt2_eq V c t d hd]; dsimp only
  iapply ((runAt2 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt2 owns; iexists _; isplitr
    swap; · iexact HS0
    ipureintro; exact View.read_writes_of_cover _ _ _ _ _ (runAt2 V c t d).covS
  by_cases h1 : t.val % 12 = 11
  · rw [show (dat2 V c).leavesExact 5 t = owns (c : Thread nD τ) (bufs2 t).o fullShare ((dat2 V c).after 5 t) from by
      unfold Dat.leavesExact; rw [liveAt2_5 t ((hcond2_1 t).mpr h1)], after2_5, outsAt2_eq V c t d hd]
    dsimp only; unfold outAt2 owns; iexists _; isplitr
    swap; · iexact H5
    ipureintro; exact View.read_writes_of_cover _ _ _ _ _ ((runAt2 V c t d).covO ((hcond2_1 t).mpr h1))
  · rw [Dat.leavesExact_idle (dat2 V c) 5 t (idleAt2_5 t (fun h => h1 ((hcond2_1 t).mp h))) (noFlush2_5 t (fun h => h1 ((hcond2_1 t).mp h)))]
    rw [runAt2_L5 V c t h1, View.writes_nil]
    iexists d5; unfold owns; iexists e5; isplitr; · ipureintro; exact he5
    iexact H5

theorem body_obligation2 (c : Dev nD) : BodyObligation (dat2 (F := F) V c) (defs₀ (F := F)) Variants.none () Set.univ := fun t => by
  rw [bigSep_W2, bigSep_W2]
  exact sound_body2 V c t

/-- After the last point the accumulator's contents are forgotten. -/
theorem hout2 (c : Dev nD) : (dat2 V c).Φ (Fin.last cfg2.N) ⊢ Pipeline.ΦA spec2 c := by
  rw [PhiA2_eq]
  refine (PhiS2_acc V c (Fin.last cfg2.N).val (Nat.le_of_lt_succ (Fin.last cfg2.N).isLt) (by rw [Fin.val_last]; have : cfg2.N = 144 := N_2; omega)).trans ?_
  iintro ⟨⟨⟨%d, -, HS0⟩, Hoth⟩, Hg⟩
  iframe Hoth Hg
  iexists d; iexact HS0

end Cert.Kernel.Hand

end
-- ==== Proof.KB.R0.Share.lean ====
import proofs.«138717_j6734508720258_1_alg».proof.Proof.Gen.Kernel.Launch
import proofs.«138717_j6734508720258_1_alg».proof.Proof.Shares

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img0 : Finset.univ.image (Pipeline.arrRef spec0) = [main_arg2, main_v6, main_v11, main_v12, main_v13].toFinset := by decide

section
variable {c : Dev nD} (dat : Dat τ (Elt F) Unit ℕ (UR sig nD τ) ℕ cfg0 c)

theorem share0_0 (hq : dat.q = qWin) : dat.share 0 = fullShare := by unfold Dat.share; rw [hq]; rfl
theorem share0_1 (hq : dat.q = qWin) : dat.share 1 = qL := by unfold Dat.share; rw [hq]; rfl
theorem share0_2 (hq : dat.q = qWin) : dat.share 2 = qR := by unfold Dat.share; rw [hq]; rfl
theorem share0_3 (hq : dat.q = qWin) : dat.share 3 = fullShare := by unfold Dat.share; rw [hq]; rfl
theorem share0_4 (hq : dat.q = qWin) : dat.share 4 = fullShare := by unfold Dat.share; rw [hq]; rfl
theorem share0_5 : dat.share 5 = fullShare := by unfold Dat.share; rfl

theorem arrays_flat0 (G : (w : Fin cfg0.W) → Buf (Elt F) ((cfg0.win w).arr.view.loc (c : Thread nD τ))) :
    dat.arrays G = bigSep Finset.univ fun w : Fin cfg0.W => (((c : Thread nD τ).loc (Pipeline.arrRef spec0 w)) ↦{dat.share w} G w : sProp 𝕄) := by
  unfold Dat.arrays
  exact bigSep_congr fun w _ => by rw [(arr_whole0 w).set_eq_univ]

theorem arrBufs_chain0 (V : (b : Ref sig .tc) → Buf (Elt F) ((c : Thread nD τ).loc b)) :
    (Pipeline.arrBufs spec0 c V : sProp 𝕄) = (iprop((((c : Thread nD τ).loc main_arg2) ↦{fullShare} V main_arg2)
      ∗ (((c : Thread nD τ).loc main_v6) ↦{fullShare} V main_v6)
      ∗ (((c : Thread nD τ).loc main_v11) ↦{fullShare} V main_v11)
      ∗ (((c : Thread nD τ).loc main_v12) ↦{fullShare} V main_v12)
      ∗ (((c : Thread nD τ).loc main_v13) ↦{fullShare} V main_v13)) : sProp 𝕄) := by
  unfold Pipeline.arrBufs
  rw [bigSep_eq_bigSepL_of_eq _ img0 (by decide)]
  rfl

variable (hq : dat.q = qWin) (V : (b : Ref sig .tc) → Buf (Elt F) ((c : Thread nD τ).loc b))
  (G : (w : Fin cfg0.W) → Buf (Elt F) ((cfg0.win w).arr.view.loc (c : Thread nD τ)))
  (hG : ∀ w, G w = V (Pipeline.arrRef spec0 w))
include hq hG

theorem arr0_0 :
    (((c : Thread nD τ).loc (Pipeline.arrRef spec0 0)) ↦{dat.share 0} G 0 : sProp 𝕄)
      = (((c : Thread nD τ).loc main_arg2) ↦{fullShare} V main_arg2) := by
  rw [share0_0 dat hq, hG 0]
theorem arr0_1 :
    (((c : Thread nD τ).loc (Pipeline.arrRef spec0 1)) ↦{dat.share 1} G 1 : sProp 𝕄)
      = (((c : Thread nD τ).loc main_v6) ↦{qL} V main_v6) := by
  rw [share0_1 dat hq, hG 1]
theorem arr0_2 :
    (((c : Thread nD τ).loc (Pipeline.arrRef spec0 2)) ↦{dat.share 2} G 2 : sProp 𝕄)
      = (((c : Thread nD τ).loc main_v6) ↦{qR} V main_v6) := by
  rw [share0_2 dat hq, hG 2]
theorem arr0_3 :
    (((c : Thread nD τ).loc (Pipeline.arrRef spec0 3)) ↦{dat.share 3} G 3 : sProp 𝕄)
      = (((c : Thread nD τ).loc main_v11) ↦{fullShare} V main_v11) := by
  rw [share0_3 dat hq, hG 3]
theorem arr0_4 :
    (((c : Thread nD τ).loc (Pipeline.arrRef spec0 4)) ↦{dat.share 4} G 4 : sProp 𝕄)
      = (((c : Thread nD τ).loc main_v12) ↦{fullShare} V main_v12) := by
  rw [share0_4 dat hq, hG 4]
theorem arr0_5 :
    (((c : Thread nD τ).loc (Pipeline.arrRef spec0 5)) ↦{dat.share 5} G 5 : sProp 𝕄)
      = (((c : Thread nD τ).loc main_v13) ↦{fullShare} V main_v13) := by
  rw [share0_5 dat, hG 5]

theorem arrays_chain0 :
    dat.arrays G = (iprop((((c : Thread nD τ).loc main_arg2) ↦{fullShare} V main_arg2)
      ∗ (((c : Thread nD τ).loc main_v6) ↦{qL} V main_v6)
      ∗ (((c : Thread nD τ).loc main_v6) ↦{qR} V main_v6)
      ∗ (((c : Thread nD τ).loc main_v11) ↦{fullShare} V main_v11)
      ∗ (((c : Thread nD τ).loc main_v12) ↦{fullShare} V main_v12)
      ∗ (((c : Thread nD τ).loc main_v13) ↦{fullShare} V main_v13)) : sProp 𝕄) := by
  rw [arrays_flat0, bigSep_W0, arr0_0 dat hq V G hG, arr0_1 dat hq V G hG, arr0_2 dat hq V G hG, arr0_3 dat hq V G hG,
    arr0_4 dat hq V G hG, arr0_5 dat hq V G hG]

theorem arrays_of_arrBufs0 :
    (Pipeline.arrBufs spec0 c V : sProp 𝕄) ⊢ dat.arrays G := by
  rw [arrays_chain0 dat hq V G hG, arrBufs_chain0]
  iintro ⟨H0, H6, H11, H12, H13⟩
  ihave H6 := (pointsTo_share full_mem_halves).1 $$ H6
  icases H6 with ⟨HL, HR⟩
  iframe

theorem arrBufs_of_arrays0 :
    dat.arrays G ⊢ (Pipeline.arrBufs spec0 c V : sProp 𝕄) := by
  rw [arrays_chain0 dat hq V G hG, arrBufs_chain0]
  iintro ⟨H0, HL, HR, H11, H12, H13⟩
  iframe H0 H11 H12 H13
  iapply (pointsTo_share full_mem_halves).2
  iframe

end
end Cert.Kernel.Hand

end
-- ==== Proof.KB.R0.Seg.lean ====
import proofs.«138717_j6734508720258_1_alg».proof.Proof.KB.R0.Share
import Idealize.ShloMosaic.Lib.Pipeline.Frame

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped0 : ∀ w : Fin cfg0.W, (Pipeline.arrRef spec0 w).isScoped = false := by decide

theorem split0 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec0 c V : sProp 𝕄) ∗ Pipeline.unscopedRest spec0 c V) :=
  Pipeline.unscopedBufs_split₀ cfgs (0 : Fin 3) arr_unscoped0 c V

theorem entry0 {c : Dev nD} (dat : Dat τ (Elt F) Unit ℕ (UR sig nD τ) ℕ cfg0 c) (hq : dat.q = qWin)
    (Win : Valuation τ sig (Elt F)) (hA : ∀ w, dat.A w = Win (Proc.devRef .tc (Pipeline.arrRef spec0 w))) :
    (StableHlo.held (c : Thread nD τ) (Pipeline.ucRefs τ sig) Win : sProp 𝕄)
      ⊢ iprop(dat.arrays (dat.arrAt · 0) ∗ Pipeline.unscopedRest spec0 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split0 c (fun b => Win (Proc.devRef .tc b))]
  exact BI.sep_mono (arrays_of_arrBufs0 dat hq (fun b => Win (Proc.devRef .tc b)) (dat.arrAt · 0) (fun w => hA w)) (BI.Entails.refl _)

theorem exit0 {c : Dev nD} (dat : Dat τ (Elt F) Unit ℕ (UR sig nD τ) ℕ cfg0 c) (hq : dat.q = qWin)
    (Win Wout : Valuation τ sig (Elt F))
    (hF : ∀ w, dat.arrAt w cfg0.N = Wout (Proc.devRef .tc (Pipeline.arrRef spec0 w)))
    (hrest : ∀ b : Ref sig .tc, b ∉ Finset.univ.image (Pipeline.arrRef spec0) → Wout (Proc.devRef .tc b) = Win (Proc.devRef .tc b)) :
    (iprop(dat.arrays (dat.arrAt · cfg0.N) ∗ Pipeline.unscopedRest spec0 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split0 c (fun b => Wout (Proc.devRef .tc b))]
  refine BI.sep_mono (arrBufs_of_arrays0 dat hq (fun b => Wout (Proc.devRef .tc b)) (dat.arrAt · cfg0.N) (fun w => hF w)) ?_
  unfold Pipeline.unscopedRest
  exact Entails.of_eq (bigSep_congr fun b hb => by dsimp only; rw [hrest b (Finset.mem_sdiff.mp hb).2])

end Cert.Kernel.Hand

end
-- ==== Proof.KB.R1.Share.lean ====
import proofs.«138717_j6734508720258_1_alg».proof.Proof.Gen.Kernel.Launch
import proofs.«138717_j6734508720258_1_alg».proof.Proof.Shares

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img1 : Finset.univ.image (Pipeline.arrRef spec1) = [main_arg2, main_v13, main_v18, main_v19, main_v20].toFinset := by decide

section
variable {c : Dev nD} (dat : Dat τ (Elt F) Unit ℕ (UR sig nD τ) ℕ cfg1 c)

theorem share1_0 (hq : dat.q = qWin) : dat.share 0 = fullShare := by unfold Dat.share; rw [hq]; rfl
theorem share1_1 (hq : dat.q = qWin) : dat.share 1 = qL := by unfold Dat.share; rw [hq]; rfl
theorem share1_2 (hq : dat.q = qWin) : dat.share 2 = qR := by unfold Dat.share; rw [hq]; rfl
theorem share1_3 (hq : dat.q = qWin) : dat.share 3 = fullShare := by unfold Dat.share; rw [hq]; rfl
theorem share1_4 (hq : dat.q = qWin) : dat.share 4 = fullShare := by unfold Dat.share; rw [hq]; rfl
theorem share1_5 : dat.share 5 = fullShare := by unfold Dat.share; rfl

theorem arrays_flat1 (G : (w : Fin cfg1.W) → Buf (Elt F) ((cfg1.win w).arr.view.loc (c : Thread nD τ))) :
    dat.arrays G = bigSep Finset.univ fun w : Fin cfg1.W => (((c : Thread nD τ).loc (Pipeline.arrRef spec1 w)) ↦{dat.share w} G w : sProp 𝕄) := by
  unfold Dat.arrays
  exact bigSep_congr fun w _ => by rw [(arr_whole1 w).set_eq_univ]

theorem arrBufs_chain1 (V : (b : Ref sig .tc) → Buf (Elt F) ((c : Thread nD τ).loc b)) :
    (Pipeline.arrBufs spec1 c V : sProp 𝕄) = (iprop((((c : Thread nD τ).loc main_arg2) ↦{fullShare} V main_arg2)
      ∗ (((c : Thread nD τ).loc main_v13) ↦{fullShare} V main_v13)
      ∗ (((c : Thread nD τ).loc main_v18) ↦{fullShare} V main_v18)
      ∗ (((c : Thread nD τ).loc main_v19) ↦{fullShare} V main_v19)
      ∗ (((c : Thread nD τ).loc main_v20) ↦{fullShare} V main_v20)) : sProp 𝕄) := by
  unfold Pipeline.arrBufs
  rw [bigSep_eq_bigSepL_of_eq _ img1 (by decide)]
  rfl

variable (hq : dat.q = qWin) (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))
include hq hG

theorem arr1_0 :
    (((c : Thread nD τ).loc (Pipeline.arrRef spec1 0)) ↦{dat.share 0} G 0 : sProp 𝕄)
      = (((c : Thread nD τ).loc main_arg2) ↦{fullShare} V main_arg2) := by
  rw [share1_0 dat hq, hG 0]
theorem arr1_1 :
    (((c : Thread nD τ).loc (Pipeline.arrRef spec1 1)) ↦{dat.share 1} G 1 : sProp 𝕄)
      = (((c : Thread nD τ).loc main_v13) ↦{qL} V main_v13) := by
  rw [share1_1 dat hq, hG 1]
theorem arr1_2 :
    (((c : Thread nD τ).loc (Pipeline.arrRef spec1 2)) ↦{dat.share 2} G 2 : sProp 𝕄)
      = (((c : Thread nD τ).loc main_v13) ↦{qR} V main_v13) := by
  rw [share1_2 dat hq, hG 2]
theorem arr1_3 :
    (((c : Thread nD τ).loc (Pipeline.arrRef spec1 3)) ↦{dat.share 3} G 3 : sProp 𝕄)
      = (((c : Thread nD τ).loc main_v18) ↦{fullShare} V main_v18) := by
  rw [share1_3 dat hq, hG 3]
theorem arr1_4 :
    (((c : Thread nD τ).loc (Pipeline.arrRef spec1 4)) ↦{dat.share 4} G 4 : sProp 𝕄)
      = (((c : Thread nD τ).loc main_v19) ↦{fullShare} V main_v19) := by
  rw [share1_4 dat hq, hG 4]
theorem arr1_5 :
    (((c : Thread nD τ).loc (Pipeline.arrRef spec1 5)) ↦{dat.share 5} G 5 : sProp 𝕄)
      = (((c : Thread nD τ).loc main_v20) ↦{fullShare} V main_v20) := by
  rw [share1_5 dat, hG 5]

theorem arrays_chain1 :
    dat.arrays G = (iprop((((c : Thread nD τ).loc main_arg2) ↦{fullShare} V main_arg2)
      ∗ (((c : Thread nD τ).loc main_v13) ↦{qL} V main_v13)
      ∗ (((c : Thread nD τ).loc main_v13) ↦{qR} V main_v13)
      ∗ (((c : Thread nD τ).loc main_v18) ↦{fullShare} V main_v18)
      ∗ (((c : Thread nD τ).loc main_v19) ↦{fullShare} V main_v19)
      ∗ (((c : Thread nD τ).loc main_v20) ↦{fullShare} V main_v20)) : sProp 𝕄) := by
  rw [arrays_flat1, bigSep_W1, arr1_0 dat hq V G hG, arr1_1 dat hq V G hG, arr1_2 dat hq V G hG, arr1_3 dat hq V G hG,
    arr1_4 dat hq V G hG, arr1_5 dat hq V G hG]

theorem arrays_of_arrBufs1 :
    (Pipeline.arrBufs spec1 c V : sProp 𝕄) ⊢ dat.arrays G := by
  rw [arrays_chain1 dat hq V G hG, arrBufs_chain1]
  iintro ⟨H0, H6, H11, H12, H13⟩
  ihave H6 := (pointsTo_share full_mem_halves).1 $$ H6
  icases H6 with ⟨HL, HR⟩
  iframe

theorem arrBufs_of_arrays1 :
    dat.arrays G ⊢ (Pipeline.arrBufs spec1 c V : sProp 𝕄) := by
  rw [arrays_chain1 dat hq V G hG, arrBufs_chain1]
  iintro ⟨H0, HL, HR, H11, H12, H13⟩
  iframe H0 H11 H12 H13
  iapply (pointsTo_share full_mem_halves).2
  iframe

end
end Cert.Kernel.Hand

end
-- ==== Proof.KB.R1.Seg.lean ====
import proofs.«138717_j6734508720258_1_alg».proof.Proof.KB.R1.Share
import Idealize.ShloMosaic.Lib.Pipeline.Frame

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped1 : ∀ w : Fin cfg1.W, (Pipeline.arrRef spec1 w).isScoped = false := by decide

theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs (1 : Fin 3) arr_unscoped1 c V

theorem entry1 {c : Dev nD} (dat : Dat τ (Elt F) Unit ℕ (UR sig nD τ) ℕ cfg1 c) (hq : dat.q = qWin)
    (Win : Valuation τ sig (Elt F)) (hA : ∀ w, dat.A w = Win (Proc.devRef .tc (Pipeline.arrRef spec1 w))) :
    (StableHlo.held (c : Thread nD τ) (Pipeline.ucRefs τ sig) Win : sProp 𝕄)
      ⊢ iprop(dat.arrays (dat.arrAt · 0) ∗ Pipeline.unscopedRest spec1 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split1 c (fun b => Win (Proc.devRef .tc b))]
  exact BI.sep_mono (arrays_of_arrBufs1 dat hq (fun b => Win (Proc.devRef .tc b)) (dat.arrAt · 0) (fun w => hA w)) (BI.Entails.refl _)

theorem exit1 {c : Dev nD} (dat : Dat τ (Elt F) Unit ℕ (UR sig nD τ) ℕ cfg1 c) (hq : dat.q = qWin)
    (Win Wout : Valuation τ sig (Elt F))
    (hF : ∀ w, dat.arrAt w cfg1.N = Wout (Proc.devRef .tc (Pipeline.arrRef spec1 w)))
    (hrest : ∀ b : Ref sig .tc, b ∉ Finset.univ.image (Pipeline.arrRef spec1) → Wout (Proc.devRef .tc b) = Win (Proc.devRef .tc b)) :
    (iprop(dat.arrays (dat.arrAt · cfg1.N) ∗ Pipeline.unscopedRest spec1 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split1 c (fun b => Wout (Proc.devRef .tc b))]
  refine BI.sep_mono (arrBufs_of_arrays1 dat hq (fun b => Wout (Proc.devRef .tc b)) (dat.arrAt · cfg1.N) (fun w => hF w)) ?_
  unfold Pipeline.unscopedRest
  exact Entails.of_eq (bigSep_congr fun b hb => by dsimp only; rw [hrest b (Finset.mem_sdiff.mp hb).2])

end Cert.Kernel.Hand

end
-- ==== Proof.KB.R2.Share.lean ====
import proofs.«138717_j6734508720258_1_alg».proof.Proof.Gen.Kernel.Launch
import proofs.«138717_j6734508720258_1_alg».proof.Proof.Shares

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img2 : Finset.univ.image (Pipeline.arrRef spec2) = [main_arg2, main_v20, main_v25, main_v26, main_v27].toFinset := by decide

section
variable {c : Dev nD} (dat : Dat τ (Elt F) Unit ℕ (UR sig nD τ) ℕ cfg2 c)

theorem share2_0 (hq : dat.q = qWin) : dat.share 0 = fullShare := by unfold Dat.share; rw [hq]; rfl
theorem share2_1 (hq : dat.q = qWin) : dat.share 1 = qL := by unfold Dat.share; rw [hq]; rfl
theorem share2_2 (hq : dat.q = qWin) : dat.share 2 = qR := by unfold Dat.share; rw [hq]; rfl
theorem share2_3 (hq : dat.q = qWin) : dat.share 3 = fullShare := by unfold Dat.share; rw [hq]; rfl
theorem share2_4 (hq : dat.q = qWin) : dat.share 4 = fullShare := by unfold Dat.share; rw [hq]; rfl
theorem share2_5 : dat.share 5 = fullShare := by unfold Dat.share; rfl

theorem arrays_flat2 (G : (w : Fin cfg2.W) → Buf (Elt F) ((cfg2.win w).arr.view.loc (c : Thread nD τ))) :
    dat.arrays G = bigSep Finset.univ fun w : Fin cfg2.W => (((c : Thread nD τ).loc (Pipeline.arrRef spec2 w)) ↦{dat.share w} G w : sProp 𝕄) := by
  unfold Dat.arrays
  exact bigSep_congr fun w _ => by rw [(arr_whole2 w).set_eq_univ]

theorem arrBufs_chain2 (V : (b : Ref sig .tc) → Buf (Elt F) ((c : Thread nD τ).loc b)) :
    (Pipeline.arrBufs spec2 c V : sProp 𝕄) = (iprop((((c : Thread nD τ).loc main_arg2) ↦{fullShare} V main_arg2)
      ∗ (((c : Thread nD τ).loc main_v20) ↦{fullShare} V main_v20)
      ∗ (((c : Thread nD τ).loc main_v25) ↦{fullShare} V main_v25)
      ∗ (((c : Thread nD τ).loc main_v26) ↦{fullShare} V main_v26)
      ∗ (((c : Thread nD τ).loc main_v27) ↦{fullShare} V main_v27)) : sProp 𝕄) := by
  unfold Pipeline.arrBufs
  rw [bigSep_eq_bigSepL_of_eq _ img2 (by decide)]
  rfl

variable (hq : dat.q = qWin) (V : (b : Ref sig .tc) → Buf (Elt F) ((c : Thread nD τ).loc b))
  (G : (w : Fin cfg2.W) → Buf (Elt F) ((cfg2.win w).arr.view.loc (c : Thread nD τ)))
  (hG : ∀ w, G w = V (Pipeline.arrRef spec2 w))
include hq hG

theorem arr2_0 :
    (((c : Thread nD τ).loc (Pipeline.arrRef spec2 0)) ↦{dat.share 0} G 0 : sProp 𝕄)
      = (((c : Thread nD τ).loc main_arg2) ↦{fullShare} V main_arg2) := by
  rw [share2_0 dat hq, hG 0]
theorem arr2_1 :
    (((c : Thread nD τ).loc (Pipeline.arrRef spec2 1)) ↦{dat.share 1} G 1 : sProp 𝕄)
      = (((c : Thread nD τ).loc main_v20) ↦{qL} V main_v20) := by
  rw [share2_1 dat hq, hG 1]
theorem arr2_2 :
    (((c : Thread nD τ).loc (Pipeline.arrRef spec2 2)) ↦{dat.share 2} G 2 : sProp 𝕄)
      = (((c : Thread nD τ).loc main_v20) ↦{qR} V main_v20) := by
  rw [share2_2 dat hq, hG 2]
theorem arr2_3 :
    (((c : Thread nD τ).loc (Pipeline.arrRef spec2 3)) ↦{dat.share 3} G 3 : sProp 𝕄)
      = (((c : Thread nD τ).loc main_v25) ↦{fullShare} V main_v25) := by
  rw [share2_3 dat hq, hG 3]
theorem arr2_4 :
    (((c : Thread nD τ).loc (Pipeline.arrRef spec2 4)) ↦{dat.share 4} G 4 : sProp 𝕄)
      = (((c : Thread nD τ).loc main_v26) ↦{fullShare} V main_v26) := by
  rw [share2_4 dat hq, hG 4]
theorem arr2_5 :
    (((c : Thread nD τ).loc (Pipeline.arrRef spec2 5)) ↦{dat.share 5} G 5 : sProp 𝕄)
      = (((c : Thread nD τ).loc main_v27) ↦{fullShare} V main_v27) := by
  rw [share2_5 dat, hG 5]

theorem arrays_chain2 :
    dat.arrays G = (iprop((((c : Thread nD τ).loc main_arg2) ↦{fullShare} V main_arg2)
      ∗ (((c : Thread nD τ).loc main_v20) ↦{qL} V main_v20)
      ∗ (((c : Thread nD τ).loc main_v20) ↦{qR} V main_v20)
      ∗ (((c : Thread nD τ).loc main_v25) ↦{fullShare} V main_v25)
      ∗ (((c : Thread nD τ).loc main_v26) ↦{fullShare} V main_v26)
      ∗ (((c : Thread nD τ).loc main_v27) ↦{fullShare} V main_v27)) : sProp 𝕄) := by
  rw [arrays_flat2, bigSep_W2, arr2_0 dat hq V G hG, arr2_1 dat hq V G hG, arr2_2 dat hq V G hG, arr2_3 dat hq V G hG,
    arr2_4 dat hq V G hG, arr2_5 dat hq V G hG]

theorem arrays_of_arrBufs2 :
    (Pipeline.arrBufs spec2 c V : sProp 𝕄) ⊢ dat.arrays G := by
  rw [arrays_chain2 dat hq V G hG, arrBufs_chain2]
  iintro ⟨H0, H6, H11, H12, H13⟩
  ihave H6 := (pointsTo_share full_mem_halves).1 $$ H6
  icases H6 with ⟨HL, HR⟩
  iframe

theorem arrBufs_of_arrays2 :
    dat.arrays G ⊢ (Pipeline.arrBufs spec2 c V : sProp 𝕄) := by
  rw [arrays_chain2 dat hq V G hG, arrBufs_chain2]
  iintro ⟨H0, HL, HR, H11, H12, H13⟩
  iframe H0 H11 H12 H13
  iapply (pointsTo_share full_mem_halves).2
  iframe

end
end Cert.Kernel.Hand

end
-- ==== Proof.KB.R2.Seg.lean ====
import proofs.«138717_j6734508720258_1_alg».proof.Proof.KB.R2.Share
import Idealize.ShloMosaic.Lib.Pipeline.Frame

noncomputable section

namespace Cert.Kernel.Hand

open Cert.Kernel Cert.Kernel.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped2 : ∀ w : Fin cfg2.W, (Pipeline.arrRef spec2 w).isScoped = false := by decide

theorem split2 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec2 c V : sProp 𝕄) ∗ Pipeline.unscopedRest spec2 c V) :=
  Pipeline.unscopedBufs_split₀ cfgs (2 : Fin 3) arr_unscoped2 c V

theorem entry2 {c : Dev nD} (dat : Dat τ (Elt F) Unit ℕ (UR sig nD τ) ℕ cfg2 c) (hq : dat.q = qWin)
    (Win : Valuation τ sig (Elt F)) (hA : ∀ w, dat.A w = Win (Proc.devRef .tc (Pipeline.arrRef spec2 w))) :
    (StableHlo.held (c : Thread nD τ) (Pipeline.ucRefs τ sig) Win : sProp 𝕄)
      ⊢ iprop(dat.arrays (dat.arrAt · 0) ∗ Pipeline.unscopedRest spec2 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split2 c (fun b => Win (Proc.devRef .tc b))]
  exact BI.sep_mono (arrays_of_arrBufs2 dat hq (fun b => Win (Proc.devRef .tc b)) (dat.arrAt · 0) (fun w => hA w)) (BI.Entails.refl _)

theorem exit2 {c : Dev nD} (dat : Dat τ (Elt F) Unit ℕ (UR sig nD τ) ℕ cfg2 c) (hq : dat.q = qWin)
    (Win Wout : Valuation τ sig (Elt F))
    (hF : ∀ w, dat.arrAt w cfg2.N = Wout (Proc.devRef .tc (Pipeline.arrRef spec2 w)))
    (hrest : ∀ b : Ref sig .tc, b ∉ Finset.univ.image (Pipeline.arrRef spec2) → Wout (Proc.devRef .tc b) = Win (Proc.devRef .tc b)) :
    (iprop(dat.arrays (dat.arrAt · cfg2.N) ∗ Pipeline.unscopedRest spec2 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split2 c (fun b => Wout (Proc.devRef .tc b))]
  refine BI.sep_mono (arrBufs_of_arrays2 dat hq (fun b => Wout (Proc.devRef .tc b)) (dat.arrAt · cfg2.N) (fun w => hF w)) ?_
  unfold Pipeline.unscopedRest
  exact Entails.of_eq (bigSep_congr fun b hb => by dsimp only; rw [hrest b (Finset.mem_sdiff.mp hb).2])

end Cert.Kernel.Hand

end
-- ==== Proof.KB.Launch.lean ====
import proofs.«138717_j6734508720258_1_alg».proof.Proof.Gen.Kernel.Regions
import proofs.«138717_j6734508720258_1_alg».proof.Proof.KB.R0.Obl
import proofs.«138717_j6734508720258_1_alg».proof.Proof.KB.R1.Obl
import proofs.«138717_j6734508720258_1_alg».proof.Proof.KB.R2.Obl
import proofs.«138717_j6734508720258_1_alg».proof.Proof.KB.R0.Seg
import proofs.«138717_j6734508720258_1_alg».proof.Proof.KB.R1.Seg
import proofs.«138717_j6734508720258_1_alg».proof.Proof.KB.R2.Seg
import Idealize.ShloMosaic.Lib.Pipeline.RegionsLoop

noncomputable section

namespace Cert.Kernel.Hand

open Cert.Kernel Cert.Kernel.Gen Cert.Shares
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) (c : Dev nD) (b : Ref sig .tc) : Buf (Elt F) ((c : Thread nD τ).loc b) :=
  W c (Proc.devRef .tc b)

def O2 (c : Dev nD) : Buf (Elt F) ((c : Thread nD τ).loc main_v13) := (dat0 (rd (V1 m)) c).arrAt 5 cfg0.N
def outsA : Outs (F := F) := fun _ r c => Function.update (V0 m c) (Proc.devRef .tc main_v13) (O2 m c) (Proc.devRef .tc r)

def O4 (c : Dev nD) : Buf (Elt F) ((c : Thread nD τ).loc main_v20) := (dat1 (rd (V3 m (outsA m))) c).arrAt 5 cfg1.N
def outsB : Outs (F := F) := fun J r c => match J with
  | 2 => outsA m 2 r c
  | _ => Function.update (V0 m c) (Proc.devRef .tc main_v20) (O4 m c) (Proc.devRef .tc r)

def O6 (c : Dev nD) : Buf (Elt F) ((c : Thread nD τ).loc main_v27) := (dat2 (rd (V5 m (outsB m))) c).arrAt 5 cfg2.N

def outs : Outs (F := F) := fun J r c => match J with
  | 2 => outsA m 2 r c
  | 4 => outsB m 4 r c
  | _ => Function.update (V0 m c) (Proc.devRef .tc main_v27) (O6 m c) (Proc.devRef .tc r)

theorem outs_main_v13 (c : Dev nD) : outs m 2 main_v13 c = O2 m c := by
  show Function.update (V0 m c) (Proc.devRef .tc main_v13) (O2 m c) (Proc.devRef .tc main_v13) = O2 m c
  exact Function.update_self _ _ _
theorem outs_main_v20 (c : Dev nD) : outs m 4 main_v20 c = O4 m c := by
  show Function.update (V0 m c) (Proc.devRef .tc main_v20) (O4 m c) (Proc.devRef .tc main_v20) = O4 m c
  exact Function.update_self _ _ _
theorem outs_main_v27 (c : Dev nD) : outs m 6 main_v27 c = O6 m c := by
  show Function.update (V0 m c) (Proc.devRef .tc main_v27) (O6 m c) (Proc.devRef .tc main_v27) = O6 m c
  exact Function.update_self _ _ _

theorem V3_stage (c : Dev nD) : V3 m (outs m) c = V3 m (outsA m) c := rfl
theorem V5_stage (c : Dev nD) : V5 m (outs m) c = V5 m (outsB m) c := rfl

def pdats : (p : Fin 3) → (c : Dev nD) → Dat τ (Elt F) Unit ℕ (UR sig nD τ) ℕ (cfgs p) c
  | ⟨0, _⟩ => fun c => dat0 (rd (V1 m)) c
  | ⟨1, _⟩ => fun c => dat1 (rd (V3 m (outsA m))) c
  | ⟨2, _⟩ => fun c => dat2 (rd (V5 m (outsB m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 4 → Dev nD → sProp 𝕄 := fun _ c => R c
theorem hE3 (c : Dev nD) : E (F := F) 3 c ⊢ (iprop(∃ W, owes (c : Thread nD τ) (0 : CellTallies nD τ sig Unit) W) : sProp 𝕄) := by
  iintro ⟨-, HO⟩; iexact HO

theorem hA0 (c : Dev nD) (w : Fin cfg0.W) : (pdats m 0 c).A w = V1 m c (Proc.devRef .tc (Pipeline.arrRef spec0 w)) :=
  A_eq0 (rd (V1 m)) c w

theorem hF0 (c : Dev nD) (w : Fin cfg0.W) : (pdats m 0 c).arrAt w cfg0.N = V2 m (outs m) c (Proc.devRef .tc (Pipeline.arrRef spec0 w)) := by
  by_cases hw : w = 5
  · subst hw
    show O2 m c = Function.update (V1 m c) (Proc.devRef .tc main_v13) (outs m 2 main_v13 c) (Proc.devRef .tc main_v13)
    rw [Function.update_self]
    exact (outs_main_v13 m c).symm
  · have hin : (cfg0.win w).isOut = false := (by decide : ∀ w : Fin 6, w ≠ 5 → (cfg0.win w).isOut = false) w hw
    have hne : Pipeline.arrRef spec0 w ∉ ([main_v13] : List (Ref sig .tc)) :=
      (by decide : ∀ w : Fin 6, w ≠ 5 → Pipeline.arrRef spec0 w ∉ ([main_v13] : List (Ref sig .tc))) w hw
    exact ((pdats m 0 c).arrAt_in w hin _).trans ((hA0 m c w).trans (V2_of m (outs m) c _ hne).symm)

theorem hrest0 (c : Dev nD) (b : Ref sig .tc) (hb : b ∉ Finset.univ.image (Pipeline.arrRef spec0)) :
    V2 m (outs m) c (Proc.devRef .tc b) = V1 m c (Proc.devRef .tc b) :=
  V2_of m (outs m) c b (fun h => hb (by
    rw [List.mem_singleton] at h; subst h
    exact Finset.mem_image.mpr ⟨5, Finset.mem_univ _, rfl⟩))

theorem hA1 (c : Dev nD) (w : Fin cfg1.W) : (pdats m 1 c).A w = V3 m (outs m) c (Proc.devRef .tc (Pipeline.arrRef spec1 w)) :=
  (A_eq1 (rd (V3 m (outsA m))) c w).trans (congrFun (V3_stage m c).symm _)

theorem hF1 (c : Dev nD) (w : Fin cfg1.W) : (pdats m 1 c).arrAt w cfg1.N = V4 m (outs m) c (Proc.devRef .tc (Pipeline.arrRef spec1 w)) := by
  by_cases hw : w = 5
  · subst hw
    show O4 m c = Function.update (V3 m (outs m) c) (Proc.devRef .tc main_v20) (outs m 4 main_v20 c) (Proc.devRef .tc main_v20)
    rw [Function.update_self]
    exact (outs_main_v20 m c).symm
  · have hin : (cfg1.win w).isOut = false := (by decide : ∀ w : Fin 6, w ≠ 5 → (cfg1.win w).isOut = false) w hw
    have hne : Pipeline.arrRef spec1 w ∉ ([main_v20] : List (Ref sig .tc)) :=
      (by decide : ∀ w : Fin 6, w ≠ 5 → Pipeline.arrRef spec1 w ∉ ([main_v20] : List (Ref sig .tc))) w hw
    exact ((pdats m 1 c).arrAt_in w hin _).trans ((hA1 m c w).trans (V4_of m (outs m) c _ hne).symm)

theorem hrest1 (c : Dev nD) (b : Ref sig .tc) (hb : b ∉ Finset.univ.image (Pipeline.arrRef spec1)) :
    V4 m (outs m) c (Proc.devRef .tc b) = V3 m (outs m) c (Proc.devRef .tc b) :=
  V4_of m (outs m) c b (fun h => hb (by
    rw [List.mem_singleton] at h; subst h
    exact Finset.mem_image.mpr ⟨5, Finset.mem_univ _, rfl⟩))

theorem hA2 (c : Dev nD) (w : Fin cfg2.W) : (pdats m 2 c).A w = V5 m (outs m) c (Proc.devRef .tc (Pipeline.arrRef spec2 w)) :=
  (A_eq2 (rd (V5 m (outsB m))) c w).trans (congrFun (V5_stage m c).symm _)

theorem hF2 (c : Dev nD) (w : Fin cfg2.W) : (pdats m 2 c).arrAt w cfg2.N = V6 m (outs m) c (Proc.devRef .tc (Pipeline.arrRef spec2 w)) := by
  by_cases hw : w = 5
  · subst hw
    show O6 m c = Function.update (V5 m (outs m) c) (Proc.devRef .tc main_v27) (outs m 6 main_v27 c) (Proc.devRef .tc main_v27)
    rw [Function.update_self]
    exact (outs_main_v27 m c).symm
  · have hin : (cfg2.win w).isOut = false := (by decide : ∀ w : Fin 6, w ≠ 5 → (cfg2.win w).isOut = false) w hw
    have hne : Pipeline.arrRef spec2 w ∉ ([main_v27] : List (Ref sig .tc)) :=
      (by decide : ∀ w : Fin 6, w ≠ 5 → Pipeline.arrRef spec2 w ∉ ([main_v27] : List (Ref sig .tc))) w hw
    exact ((pdats m 2 c).arrAt_in w hin _).trans ((hA2 m c w).trans (V6_of m (outs m) c _ hne).symm)

theorem hrest2 (c : Dev nD) (b : Ref sig .tc) (hb : b ∉ Finset.univ.image (Pipeline.arrRef spec2)) :
    V6 m (outs m) c (Proc.devRef .tc b) = V5 m (outs m) c (Proc.devRef .tc b) :=
  V6_of m (outs m) c b (fun h => hb (by
    rw [List.mem_singleton] at h; subst h
    exact Finset.mem_image.mpr ⟨5, Finset.mem_univ _, rfl⟩))

set_option backward.isDefEq.respectTransparency.types false in

def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 _ c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V1 m c (Proc.devRef .tc b))
  hentry c := by
    rw [Pipeline.ownSems0_none]
    iintro ⟨⟨Hub, Hp, HO⟩, -, -⟩
    ihave H := (entry0 (pdats m 0 c) rfl (V1 m c) (hA0 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 (pdats m 0 c) rfl (V1 m c) (V2 m (outs m) c) (hF0 m c) (hrest0 m c))
      isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 _ c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V3 m (outs m) c (Proc.devRef .tc b))
  hentry c := by
    rw [Pipeline.ownSems0_none]
    iintro ⟨⟨Hub, Hp, HO⟩, -, -⟩
    ihave H := (entry1 (pdats m 1 c) rfl (V3 m (outs m) c) (hA1 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 (pdats m 1 c) rfl (V3 m (outs m) c) (V4 m (outs m) c) (hF1 m c) (hrest1 m c))
      isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 _ c).loose
  hwaits := Pipeline.hwaits_of_owed_zero _ _ _ _ L lv 2 fun _ _ => rfl
  pre c := iprop(StableHlo.held (c : Thread nD τ) (Pipeline.ucRefs τ sig) (V5 m (outs m) c) ∗ E 2 c)
  post c := iprop(StableHlo.held (c : Thread nD τ) (Pipeline.ucRefs τ sig) (V6 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (fun b => V5 m (outs m) c (Proc.devRef .tc b))
  hentry c := by
    rw [Pipeline.ownSems0_none]
    iintro ⟨⟨Hub, Hp, HO⟩, -, -⟩
    ihave H := (entry2 (pdats m 2 c) rfl (V5 m (outs m) c) (hA2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 (pdats m 2 c) rfl (V5 m (outs m) c) (V6 m (outs m) c) (hF2 m c) (hrest2 m c))
      isplitl [Ha] <;> iassumption
    isplitl [HY]; · iexact HY
    unfold Pipeline.Dat.owesAt Pipeline.owesWithin
    icases HO with ⟨%W, -, HO⟩; iexists W; iexact HO

end Cert.Kernel.Hand

end
-- ==== Proof.KI.Args.lean ====
import proofs.«138717_j6734508720258_1_alg».proof.Proof.Gen.KernelIdeal.Launch

namespace Cert.KernelIdeal.Hand

open Cert.KernelIdeal Idealize.ShloMosaic

/-- The seven whole memrefs a layer kernel is called on: adjacency tile, contraction rows, residual rows, weight,
    bias row, output block, accumulator. -/
structure Bufs where
  a : Memref sig .tc .vmem S1024x1024 .f32
  ha : a.IsWhole
  xk : Memref sig .tc .vmem S1024x64 .f32
  hxk : xk.IsWhole
  xi : Memref sig .tc .vmem S1024x64 .f32
  hxi : xi.IsWhole
  w : Memref sig .tc .vmem S64x64 .f32
  hw : w.IsWhole
  b : Memref sig .tc .vmem S1x64 .f32
  hb : b.IsWhole
  o : Memref sig .tc .vmem S1024x64 .f32
  ho : o.IsWhole
  acc : Memref sig .tc .vmem S1024x64 .f32
  hacc : acc.IsWhole

/-- The five input blocks of one grid point. -/
structure Ins (F : FTy → Type) where
  a : Vec F S1024x1024 .f32
  xk : Vec F S1024x64 .f32
  xi : Vec F S1024x64 .f32
  w : Vec F S64x64 .f32
  b : Vec F S1x64 .f32

end Cert.KernelIdeal.Hand
-- ==== Proof.KI.R0.Runs.lean ====
import proofs.«138717_j6734508720258_1_alg».proof.Proof.KI.Args
import proofs.«138717_j6734508720258_1_alg».proof.Proof.Gen.KernelIdeal.Skeleton
import proofs.«138717_j6734508720258_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0 : ∀ w : Fin cfg0.W, w ≠ 5 → ∀ t : Fin cfg0.N, cfg0.idle w (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

theorem liveAt0_5 : ∀ t : Fin cfg0.N, cond0_1 (grid0.coords t) → cfg0.idle 5 (grid0.coords t) = false := by decide +kernel

abbrev VO0_5 : View sig .tc .vmem S1024x64 .f32 := (Memref.whole cc0_stg5_0 : Memref sig .tc .vmem S1024x64 .f32).view

abbrev scM0_0 : Memref sig .tc .vmem S1024x64 .f32 := Memref.whole cc0_scratch0
abbrev VS0_0 : View sig .tc .vmem S1024x64 .f32 := scM0_0.view

/-- The memrefs the body is called on at point t, and its input blocks there. -/
abbrev bufs0 (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    scM0_0, Memref.isWhole_whole _⟩
abbrev ins0 (c : Dev nD) (t : Fin cfg0.N) : Ins F :=
  ⟨iblk0 V c 0 t, iblk0 V c 1 t, iblk0 V c 2 t, iblk0 V c 3 t, iblk0 V c 4 t⟩

/-- What the body does at grid coordinates i, the inputs at x and the accumulator at xs: the inputs are left as they
    were, the accumulator is overwritten entirely, and so is the output block when k = 11. -/
structure Run0 (c : Dev nD) (i : grid0.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc0__layer_kernel i m.a m.ha m.xk m.hxk m.xi m.hxi m.w m.hw m.b m.hb m.o m.ho m.acc m.hacc) K
  covS : ∀ y : S1024x64.Idx, ∃ pc ∈ LS, y ∈ pc.1.set
  covO : cond0_1 i → ∀ y : S1024x64.Idx, ∃ pc ∈ L5, y ∈ pc.1.set

end Cert.KernelIdeal.Hand

end
-- ==== Proof.KI.R0.RunA.lean ====
import proofs.«138717_j6734508720258_1_alg».proof.Proof.KI.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_A (c : Dev nD) (i : grid0.Coords) (m : Bufs) (hc0 : cond0_0 i) (hc1 : ¬cond0_1 i) (x : Ins F) (xs : Vec F S1024x64 .f32) :
    Run0 c i m x xs := by
  refine { L5 := [], LS := ?_, run := fun xo E K => ?run, covS := ?cov, covO := fun h => absurd h hc1 }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R0.RunB.lean ====
import proofs.«138717_j6734508720258_1_alg».proof.Proof.KI.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_B (c : Dev nD) (i : grid0.Coords) (m : Bufs) (hc0 : ¬cond0_0 i) (hc1 : ¬cond0_1 i) (x : Ins F) (xs : Vec F S1024x64 .f32) :
    Run0 c i m x xs := by
  refine { L5 := [], LS := ?_, run := fun xo E K => ?run, covS := ?cov, covO := fun h => absurd h hc1 }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R0.RunC.lean ====
import proofs.«138717_j6734508720258_1_alg».proof.Proof.KI.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun0_C (c : Dev nD) (i : grid0.Coords) (m : Bufs) (hc0 : ¬cond0_0 i) (hc1 : cond0_1 i) (x : Ins F) (xs : Vec F S1024x64 .f32) :
    Run0 c i m x xs := by
  refine { L5 := ?_, LS := ?_, run := fun xo E K => ?run, covS := ?cov, covO := fun _ => ?covo }
  case run =>
    rw [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.KernelIdeal.Hand

end
-- ==== Proof.KI.R0.Body.lean ====
import proofs.«138717_j6734508720258_1_alg».proof.Proof.KI.R0.RunA
import proofs.«138717_j6734508720258_1_alg».proof.Proof.KI.R0.RunB
import proofs.«138717_j6734508720258_1_alg».proof.Proof.KI.R0.RunC
import proofs.«138717_j6734508720258_1_alg».proof.Proof.Shares

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt0 {c : Dev nD} {i : grid0.Coords} {m : Bufs} {x : Ins F} {xs : Vec F S1024x64 .f32} (r : Run0 c i m x xs) : Vec F S1024x64 .f32 :=
  VO0_5.read (Elt F) (VO0_5.writes (Elt F) VO0_5.junk r.L5)
def accAt0 {c : Dev nD} {i : grid0.Coords} {m : Bufs} {x : Ins F} {xs : Vec F S1024x64 .f32} (r : Run0 c i m x xs) : Vec F S1024x64 .f32 :=
  VS0_0.read (Elt F) (VS0_0.writes (Elt F) VS0_0.junk r.LS)

/-- The body's run at point t, by the case of t mod 12. -/
def runAt0 (c : Dev nD) (t : Fin cfg0.N) (xs : Vec F S1024x64 .f32) : Run0 c (grid0.coords t) (bufs0 t) (ins0 V c t) xs :=
  if h0 : t.val % 12 = 0 then kernelRun0_A c _ _ ((hcond0_0 t).mpr h0) (fun h => by have := (hcond0_1 t).mp h; omega) _ xs
  else if h1 : t.val % 12 = 11 then kernelRun0_C c _ _ (fun h => h0 ((hcond0_0 t).mp h)) ((hcond0_1 t).mpr h1) _ xs
  else kernelRun0_B c _ _ (fun h => h0 ((hcond0_0 t).mp h)) (fun h => h1 ((hcond0_1 t).mp h)) _ xs

/-- Only a point with k = 11 stores into the output block. -/
theorem runAt0_L5 (c : Dev nD) (t : Fin cfg0.N) (h1 : ¬t.val % 12 = 11) (xs : Vec F S1024x64 .f32) : (runAt0 V c t xs).L5 = [] := by
  unfold runAt0
  by_cases h0 : t.val % 12 = 0
  · rw [dif_pos h0]; rfl
  · rw [dif_neg h0, dif_neg h1]; rfl

/-- Where the accumulator is reset, what the run leaves does not depend on what the accumulator held. -/
theorem runAt0_reset (c : Dev nD) (t : Fin cfg0.N) (h0 : t.val % 12 = 0) (xs xs' : Vec F S1024x64 .f32) :
    (outAt0 (runAt0 V c t xs), accAt0 (runAt0 V c t xs)) = (outAt0 (runAt0 V c t xs'), accAt0 (runAt0 V c t xs')) := by
  unfold runAt0; simp only [dif_pos h0]; rfl

/-- Output block and accumulator after the body at position n, the accumulator found at what position n - 1 left
    (before the first point, where it is reset, at the zero block). -/
def outsAt0 (c : Dev nD) : (n : ℕ) → n < cfg0.N → Vec F S1024x64 .f32 × Vec F S1024x64 .f32
  | 0, hn => (outAt0 (runAt0 V c ⟨0, hn⟩ k0_pay1), accAt0 (runAt0 V c ⟨0, hn⟩ k0_pay1))
  | n + 1, hn => (outAt0 (runAt0 V c ⟨n + 1, hn⟩ (outsAt0 c n (Nat.lt_of_succ_lt hn)).2), accAt0 (runAt0 V c ⟨n + 1, hn⟩ (outsAt0 c n (Nat.lt_of_succ_lt hn)).2))

/-- What the point before t left in the accumulator. -/
abbrev prev0 (c : Dev nD) (t : Fin cfg0.N) : Vec F S1024x64 .f32 :=
  (outsAt0 V c (t.val - 1) (Nat.lt_of_le_of_lt (Nat.sub_le _ _) t.isLt)).2

theorem outsAt0_eq (c : Dev nD) (t : Fin cfg0.N) (d : Vec F S1024x64 .f32) (hd : t.val ≠ 0 → d = prev0 V c t) :
    outsAt0 V c t.val t.isLt = (outAt0 (runAt0 V c t d), accAt0 (runAt0 V c t d)) := by
  obtain ⟨n, hn⟩ := t
  cases n with
  | zero => exact runAt0_reset V c ⟨0, hn⟩ (Nat.zero_mod _) _ _
  | succ n => rw [hd (Nat.succ_ne_zero n)]; rfl

def Others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem PhiA0_eq (c : Dev nD) :
    (Pipeline.ΦA spec0 c : sProp 𝕄)
      = iprop(iprop((∃ d, owns (c : Thread nD τ) scM0_0 fullShare d) ∗ Others0 c) ∗ (∃ r, prngReg c r)) := by
  unfold Pipeline.ΦA Pipeline.scopedRest Others0
  rw [bigSep_erase (i := cc0_scratch0) (by decide)]
  simp only [scM0_0, owns_whole]; try rfl

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 c) ∗ (∃ r, prngReg c r))

theorem PhiS0_succ (c : Dev nD) (n : ℕ) (hn : n < cfg0.N) :
    PhiS0 V c (n + 1) hn = iprop(iprop(owns (c : Thread nD τ) scM0_0 fullShare ((outsAt0 V c n hn).2) ∗ Others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Others0 c) ∗ (∃ r, prngReg c r)) := by
  cases n with
  | zero => exact absurd rfl hz
  | succ n => rfl

/-- The invariant hands out the accumulator at contents d: past the first position what the point before left. -/
theorem PhiS0_acc (c : Dev nD) (n : ℕ) (h : n ≤ cfg0.N) (h' : n - 1 < cfg0.N) :
    PhiS0 V c n h ⊢ iprop(iprop((∃ d, ⌜n ≠ 0 → d = (outsAt0 V c (n - 1) h').2⌝ ∗ owns (c : Thread nD τ) scM0_0 fullShare d) ∗ Others0 c) ∗ (∃ r, prngReg c r)) := by
  cases n with
  | zero =>
    rw [show PhiS0 V c 0 h = _ from PhiA0_eq c]
    iintro ⟨⟨⟨%d, HS0⟩, Hoth⟩, Hg⟩
    iframe Hoth Hg
    iexists d; isplitr; · ipureintro; exact fun h => absurd rfl h
    iexact HS0
  | succ n =>
    rw [PhiS0_succ]
    iintro ⟨⟨HS0, Hoth⟩, Hg⟩
    iframe Hoth Hg
    iexists _; isplitr
    swap; · iexact HS0
    ipureintro; exact fun _ => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q := Cert.Shares.qWin
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = (ins0 V c t).a :=
  ((dat0 V c).before_in_eq_fetched 0 rfl (fun _ => rfl) (fun _ _ _ => rfl) (fun _ => rfl) t d).trans rfl
theorem before0_1 (c : Dev nD) (t : Fin cfg0.N) (d) : (dat0 V c).before 1 t d = (ins0 V c t).xk :=
  ((dat0 V c).before_in_eq_fetched 1 rfl (fun _ => rfl) (fun _ _ _ => rfl) (fun _ => rfl) t d).trans rfl
theorem before0_2 (c : Dev nD) (t : Fin cfg0.N) (d) : (dat0 V c).before 2 t d = (ins0 V c t).xi :=
  ((dat0 V c).before_in_eq_fetched 2 rfl (fun _ => rfl) (fun _ _ _ => rfl) (fun _ => rfl) t d).trans rfl
theorem before0_3 (c : Dev nD) (t : Fin cfg0.N) (d) : (dat0 V c).before 3 t d = (ins0 V c t).w :=
  ((dat0 V c).before_in_eq_fetched 3 rfl (fun _ => rfl) (fun _ _ _ => rfl) (fun _ => rfl) t d).trans rfl
theorem before0_4 (c : Dev nD) (t : Fin cfg0.N) (d) : (dat0 V c).before 4 t d = (ins0 V c t).b :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (bufs0 t).a fullShare ((dat0 V c).before 0 t d))
    ∗ (∃ d, owns (c : Thread nD τ) (bufs0 t).xk fullShare ((dat0 V c).before 1 t d))
    ∗ (∃ d, owns (c : Thread nD τ) (bufs0 t).xi fullShare ((dat0 V c).before 2 t d))
    ∗ (∃ d, owns (c : Thread nD τ) (bufs0 t).w fullShare ((dat0 V c).before 3 t d))
    ∗ (∃ d, owns (c : Thread nD τ) (bufs0 t).b fullShare ((dat0 V c).before 4 t d))
    ∗ (∃ d, owns (c : Thread nD τ) (bufs0 t).o fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (bufs0 t).a fullShare (ins0 V c t).a := by
  unfold Dat.leavesExact; rw [liveAt0 0 (by decide) t]; (try rfl)
theorem leaves0_1 (c : Dev nD) (t : Fin cfg0.N) : (dat0 V c).leavesExact 1 t = owns (c : Thread nD τ) (bufs0 t).xk fullShare (ins0 V c t).xk := by
  unfold Dat.leavesExact; rw [liveAt0 1 (by decide) t]; (try rfl)
theorem leaves0_2 (c : Dev nD) (t : Fin cfg0.N) : (dat0 V c).leavesExact 2 t = owns (c : Thread nD τ) (bufs0 t).xi fullShare (ins0 V c t).xi := by
  unfold Dat.leavesExact; rw [liveAt0 2 (by decide) t]; (try rfl)
theorem leaves0_3 (c : Dev nD) (t : Fin cfg0.N) : (dat0 V c).leavesExact 3 t = owns (c : Thread nD τ) (bufs0 t).w fullShare (ins0 V c t).w := by
  unfold Dat.leavesExact; rw [liveAt0 3 (by decide) t]; (try rfl)
theorem leaves0_4 (c : Dev nD) (t : Fin cfg0.N) : (dat0 V c).leavesExact 4 t = owns (c : Thread nD τ) (bufs0 t).b fullShare (ins0 V c t).b := by
  unfold Dat.leavesExact; rw [liveAt0 4 (by decide) t]; (try rfl)

end Cert.KernelIdeal.Hand

end
-- ==== Proof.KI.R0.Obl.lean ====
import proofs.«138717_j6734508720258_1_alg».proof.Proof.KI.R0.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, PhiS0_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS0_acc V c t.val (Nat.le_of_lt t.isLt) (Nat.lt_of_le_of_lt (Nat.sub_le _ _) t.isLt)) $$ Hphi
  icases Hphi with ⟨⟨⟨%d, %hd, HS0⟩, Hoth⟩, Hg⟩
  rw [outsAt0_eq V c t d hd]; dsimp only
  iapply ((runAt0 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt0 owns; iexists _; isplitr
    swap; · iexact HS0
    ipureintro; exact View.read_writes_of_cover _ _ _ _ _ (runAt0 V c t d).covS
  by_cases h1 : t.val % 12 = 11
  · rw [show (dat0 V c).leavesExact 5 t = owns (c : Thread nD τ) (bufs0 t).o fullShare ((dat0 V c).after 5 t) from by
      unfold Dat.leavesExact; rw [liveAt0_5 t ((hcond0_1 t).mpr h1)], after0_5, outsAt0_eq V c t d hd]
    dsimp only; unfold outAt0 owns; iexists _; isplitr
    swap; · iexact H5
    ipureintro; exact View.read_writes_of_cover _ _ _ _ _ ((runAt0 V c t d).covO ((hcond0_1 t).mpr h1))
  · rw [Dat.leavesExact_idle (dat0 V c) 5 t (idleAt0_5 t (fun h => h1 ((hcond0_1 t).mp h))) (noFlush0_5 t (fun h => h1 ((hcond0_1 t).mp h)))]
    rw [runAt0_L5 V c t h1, View.writes_nil]
    iexists d5; unfold owns; iexists e5; isplitr; · ipureintro; exact he5
    iexact H5

theorem body_obligation0 (c : Dev nD) : BodyObligation (dat0 (F := F) V c) (defs₀ (F := F)) Variants.none () Set.univ := fun t => by
  rw [bigSep_W0, bigSep_W0]
  exact sound_body0 V c t

/-- After the last point the accumulator's contents are forgotten. -/
theorem hout0 (c : Dev nD) : (dat0 V c).Φ (Fin.last cfg0.N) ⊢ Pipeline.ΦA spec0 c := by
  rw [PhiA0_eq]
  refine (PhiS0_acc V c (Fin.last cfg0.N).val (Nat.le_of_lt_succ (Fin.last cfg0.N).isLt) (by rw [Fin.val_last]; have : cfg0.N = 144 := N_0; omega)).trans ?_
  iintro ⟨⟨⟨%d, -, HS0⟩, Hoth⟩, Hg⟩
  iframe Hoth Hg
  iexists d; iexact HS0

end Cert.KernelIdeal.Hand

end
-- ==== Proof.KI.R1.Runs.lean ====
import proofs.«138717_j6734508720258_1_alg».proof.Proof.KI.Args
import proofs.«138717_j6734508720258_1_alg».proof.Proof.Gen.KernelIdeal.Skeleton
import proofs.«138717_j6734508720258_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

theorem liveAt1 : ∀ w : Fin cfg1.W, w ≠ 5 → ∀ t : Fin cfg1.N, cfg1.idle w (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

abbrev VO1_5 : View sig .tc .vmem S1024x64 .f32 := (Memref.whole cc1_stg5_0 : Memref sig .tc .vmem S1024x64 .f32).view

abbrev scM1_0 : Memref sig .tc .vmem S1024x64 .f32 := Memref.whole cc1_scratch0
abbrev VS1_0 : View sig .tc .vmem S1024x64 .f32 := scM1_0.view

/-- The memrefs the body is called on at point t, and its input blocks there. -/
abbrev bufs1 (t : Fin cfg1.N) : Bufs :=
  ⟨win1_0.stage (cfg1.slots t 0), hstage1_0 ((cfg1.slots t 0).cast nbuf1_0), win1_1.stage (cfg1.slots t 1), hstage1_1 ((cfg1.slots t 1).cast nbuf1_1),
    win1_2.stage (cfg1.slots t 2), hstage1_2 ((cfg1.slots t 2).cast nbuf1_2), win1_3.stage (cfg1.slots t 3), hstage1_3 ((cfg1.slots t 3).cast nbuf1_3),
    win1_4.stage (cfg1.slots t 4), hstage1_4 ((cfg1.slots t 4).cast nbuf1_4), win1_5.stage (cfg1.slots t 5), hstage1_5 ((cfg1.slots t 5).cast nbuf1_5),
    scM1_0, Memref.isWhole_whole _⟩
abbrev ins1 (c : Dev nD) (t : Fin cfg1.N) : Ins F :=
  ⟨iblk1 V c 0 t, iblk1 V c 1 t, iblk1 V c 2 t, iblk1 V c 3 t, iblk1 V c 4 t⟩

/-- What the body does at grid coordinates i, the inputs at x and the accumulator at xs: the inputs are left as they
    were, the accumulator is overwritten entirely, and so is the output block when k = 11. -/
structure Run1 (c : Dev nD) (i : grid1.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc1__layer_kernel i m.a m.ha m.xk m.hxk m.xi m.hxi m.w m.hw m.b m.hb m.o m.ho m.acc m.hacc) K
  covS : ∀ y : S1024x64.Idx, ∃ pc ∈ LS, y ∈ pc.1.set
  covO : cond1_1 i → ∀ y : S1024x64.Idx, ∃ pc ∈ L5, y ∈ pc.1.set

end Cert.KernelIdeal.Hand

end
-- ==== Proof.KI.R1.RunA.lean ====
import proofs.«138717_j6734508720258_1_alg».proof.Proof.KI.R1.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_A (c : Dev nD) (i : grid1.Coords) (m : Bufs) (hc0 : cond1_0 i) (hc1 : ¬cond1_1 i) (x : Ins F) (xs : Vec F S1024x64 .f32) :
    Run1 c i m x xs := by
  refine { L5 := [], LS := ?_, run := fun xo E K => ?run, covS := ?cov, covO := fun h => absurd h hc1 }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R1.RunB.lean ====
import proofs.«138717_j6734508720258_1_alg».proof.Proof.KI.R1.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_B (c : Dev nD) (i : grid1.Coords) (m : Bufs) (hc0 : ¬cond1_0 i) (hc1 : ¬cond1_1 i) (x : Ins F) (xs : Vec F S1024x64 .f32) :
    Run1 c i m x xs := by
  refine { L5 := [], LS := ?_, run := fun xo E K => ?run, covS := ?cov, covO := fun h => absurd h hc1 }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R1.RunC.lean ====
import proofs.«138717_j6734508720258_1_alg».proof.Proof.KI.R1.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun1_C (c : Dev nD) (i : grid1.Coords) (m : Bufs) (hc0 : ¬cond1_0 i) (hc1 : cond1_1 i) (x : Ins F) (xs : Vec F S1024x64 .f32) :
    Run1 c i m x xs := by
  refine { L5 := ?_, LS := ?_, run := fun xo E K => ?run, covS := ?cov, covO := fun _ => ?covo }
  case run =>
    rw [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.KernelIdeal.Hand

end
-- ==== Proof.KI.R1.Body.lean ====
import proofs.«138717_j6734508720258_1_alg».proof.Proof.KI.R1.RunA
import proofs.«138717_j6734508720258_1_alg».proof.Proof.KI.R1.RunB
import proofs.«138717_j6734508720258_1_alg».proof.Proof.KI.R1.RunC
import proofs.«138717_j6734508720258_1_alg».proof.Proof.Shares

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt1 {c : Dev nD} {i : grid1.Coords} {m : Bufs} {x : Ins F} {xs : Vec F S1024x64 .f32} (r : Run1 c i m x xs) : Vec F S1024x64 .f32 :=
  VO1_5.read (Elt F) (VO1_5.writes (Elt F) VO1_5.junk r.L5)
def accAt1 {c : Dev nD} {i : grid1.Coords} {m : Bufs} {x : Ins F} {xs : Vec F S1024x64 .f32} (r : Run1 c i m x xs) : Vec F S1024x64 .f32 :=
  VS1_0.read (Elt F) (VS1_0.writes (Elt F) VS1_0.junk r.LS)

/-- The body's run at point t, by the case of t mod 12. -/
def runAt1 (c : Dev nD) (t : Fin cfg1.N) (xs : Vec F S1024x64 .f32) : Run1 c (grid1.coords t) (bufs1 t) (ins1 V c t) xs :=
  if h0 : t.val % 12 = 0 then kernelRun1_A c _ _ ((hcond1_0 t).mpr h0) (fun h => by have := (hcond1_1 t).mp h; omega) _ xs
  else if h1 : t.val % 12 = 11 then kernelRun1_C c _ _ (fun h => h0 ((hcond1_0 t).mp h)) ((hcond1_1 t).mpr h1) _ xs
  else kernelRun1_B c _ _ (fun h => h0 ((hcond1_0 t).mp h)) (fun h => h1 ((hcond1_1 t).mp h)) _ xs

/-- Only a point with k = 11 stores into the output block. -/
theorem runAt1_L5 (c : Dev nD) (t : Fin cfg1.N) (h1 : ¬t.val % 12 = 11) (xs : Vec F S1024x64 .f32) : (runAt1 V c t xs).L5 = [] := by
  unfold runAt1
  by_cases h0 : t.val % 12 = 0
  · rw [dif_pos h0]; rfl
  · rw [dif_neg h0, dif_neg h1]; rfl

/-- Where the accumulator is reset, what the run leaves does not depend on what the accumulator held. -/
theorem runAt1_reset (c : Dev nD) (t : Fin cfg1.N) (h0 : t.val % 12 = 0) (xs xs' : Vec F S1024x64 .f32) :
    (outAt1 (runAt1 V c t xs), accAt1 (runAt1 V c t xs)) = (outAt1 (runAt1 V c t xs'), accAt1 (runAt1 V c t xs')) := by
  unfold runAt1; simp only [dif_pos h0]; rfl

/-- Output block and accumulator after the body at position n, the accumulator found at what position n - 1 left
    (before the first point, where it is reset, at the zero block). -/
def outsAt1 (c : Dev nD) : (n : ℕ) → n < cfg1.N → Vec F S1024x64 .f32 × Vec F S1024x64 .f32
  | 0, hn => (outAt1 (runAt1 V c ⟨0, hn⟩ k1_pay1), accAt1 (runAt1 V c ⟨0, hn⟩ k1_pay1))
  | n + 1, hn => (outAt1 (runAt1 V c ⟨n + 1, hn⟩ (outsAt1 c n (Nat.lt_of_succ_lt hn)).2), accAt1 (runAt1 V c ⟨n + 1, hn⟩ (outsAt1 c n (Nat.lt_of_succ_lt hn)).2))

/-- What the point before t left in the accumulator. -/
abbrev prev1 (c : Dev nD) (t : Fin cfg1.N) : Vec F S1024x64 .f32 :=
  (outsAt1 V c (t.val - 1) (Nat.lt_of_le_of_lt (Nat.sub_le _ _) t.isLt)).2

theorem outsAt1_eq (c : Dev nD) (t : Fin cfg1.N) (d : Vec F S1024x64 .f32) (hd : t.val ≠ 0 → d = prev1 V c t) :
    outsAt1 V c t.val t.isLt = (outAt1 (runAt1 V c t d), accAt1 (runAt1 V c t d)) := by
  obtain ⟨n, hn⟩ := t
  cases n with
  | zero => exact runAt1_reset V c ⟨0, hn⟩ (Nat.zero_mod _) _ _
  | succ n => rw [hd (Nat.succ_ne_zero n)]; rfl

def Others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem PhiA1_eq (c : Dev nD) :
    (Pipeline.ΦA spec1 c : sProp 𝕄)
      = iprop(iprop((∃ d, owns (c : Thread nD τ) scM1_0 fullShare d) ∗ Others1 c) ∗ (∃ r, prngReg c r)) := by
  unfold Pipeline.ΦA Pipeline.scopedRest Others1
  rw [bigSep_erase (i := cc1_scratch0) (by decide)]
  simp only [scM1_0, owns_whole]; try rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Others1 c) ∗ (∃ r, prngReg c r))

theorem PhiS1_succ (c : Dev nD) (n : ℕ) (hn : n < cfg1.N) :
    PhiS1 V c (n + 1) hn = iprop(iprop(owns (c : Thread nD τ) scM1_0 fullShare ((outsAt1 V c n hn).2) ∗ Others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Others1 c) ∗ (∃ r, prngReg c r)) := by
  cases n with
  | zero => exact absurd rfl hz
  | succ n => rfl

/-- The invariant hands out the accumulator at contents d: past the first position what the point before left. -/
theorem PhiS1_acc (c : Dev nD) (n : ℕ) (h : n ≤ cfg1.N) (h' : n - 1 < cfg1.N) :
    PhiS1 V c n h ⊢ iprop(iprop((∃ d, ⌜n ≠ 0 → d = (outsAt1 V c (n - 1) h').2⌝ ∗ owns (c : Thread nD τ) scM1_0 fullShare d) ∗ Others1 c) ∗ (∃ r, prngReg c r)) := by
  cases n with
  | zero =>
    rw [show PhiS1 V c 0 h = _ from PhiA1_eq c]
    iintro ⟨⟨⟨%d, HS0⟩, Hoth⟩, Hg⟩
    iframe Hoth Hg
    iexists d; isplitr; · ipureintro; exact fun h => absurd rfl h
    iexact HS0
  | succ n =>
    rw [PhiS1_succ]
    iintro ⟨⟨HS0, Hoth⟩, Hg⟩
    iframe Hoth Hg
    iexists _; isplitr
    swap; · iexact HS0
    ipureintro; exact fun _ => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := Cert.Shares.qWin
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = (ins1 V c t).a :=
  ((dat1 V c).before_in_eq_fetched 0 rfl (fun _ => rfl) (fun _ _ _ => rfl) (fun _ => rfl) t d).trans rfl
theorem before1_1 (c : Dev nD) (t : Fin cfg1.N) (d) : (dat1 V c).before 1 t d = (ins1 V c t).xk :=
  ((dat1 V c).before_in_eq_fetched 1 rfl (fun _ => rfl) (fun _ _ _ => rfl) (fun _ => rfl) t d).trans rfl
theorem before1_2 (c : Dev nD) (t : Fin cfg1.N) (d) : (dat1 V c).before 2 t d = (ins1 V c t).xi :=
  ((dat1 V c).before_in_eq_fetched 2 rfl (fun _ => rfl) (fun _ _ _ => rfl) (fun _ => rfl) t d).trans rfl
theorem before1_3 (c : Dev nD) (t : Fin cfg1.N) (d) : (dat1 V c).before 3 t d = (ins1 V c t).w :=
  ((dat1 V c).before_in_eq_fetched 3 rfl (fun _ => rfl) (fun _ _ _ => rfl) (fun _ => rfl) t d).trans rfl
theorem before1_4 (c : Dev nD) (t : Fin cfg1.N) (d) : (dat1 V c).before 4 t d = (ins1 V c t).b :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (bufs1 t).a fullShare ((dat1 V c).before 0 t d))
    ∗ (∃ d, owns (c : Thread nD τ) (bufs1 t).xk fullShare ((dat1 V c).before 1 t d))
    ∗ (∃ d, owns (c : Thread nD τ) (bufs1 t).xi fullShare ((dat1 V c).before 2 t d))
    ∗ (∃ d, owns (c : Thread nD τ) (bufs1 t).w fullShare ((dat1 V c).before 3 t d))
    ∗ (∃ d, owns (c : Thread nD τ) (bufs1 t).b fullShare ((dat1 V c).before 4 t d))
    ∗ (∃ d, owns (c : Thread nD τ) (bufs1 t).o fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (bufs1 t).a fullShare (ins1 V c t).a := by
  unfold Dat.leavesExact; rw [liveAt1 0 (by decide) t]; (try rfl)
theorem leaves1_1 (c : Dev nD) (t : Fin cfg1.N) : (dat1 V c).leavesExact 1 t = owns (c : Thread nD τ) (bufs1 t).xk fullShare (ins1 V c t).xk := by
  unfold Dat.leavesExact; rw [liveAt1 1 (by decide) t]; (try rfl)
theorem leaves1_2 (c : Dev nD) (t : Fin cfg1.N) : (dat1 V c).leavesExact 2 t = owns (c : Thread nD τ) (bufs1 t).xi fullShare (ins1 V c t).xi := by
  unfold Dat.leavesExact; rw [liveAt1 2 (by decide) t]; (try rfl)
theorem leaves1_3 (c : Dev nD) (t : Fin cfg1.N) : (dat1 V c).leavesExact 3 t = owns (c : Thread nD τ) (bufs1 t).w fullShare (ins1 V c t).w := by
  unfold Dat.leavesExact; rw [liveAt1 3 (by decide) t]; (try rfl)
theorem leaves1_4 (c : Dev nD) (t : Fin cfg1.N) : (dat1 V c).leavesExact 4 t = owns (c : Thread nD τ) (bufs1 t).b fullShare (ins1 V c t).b := by
  unfold Dat.leavesExact; rw [liveAt1 4 (by decide) t]; (try rfl)

end Cert.KernelIdeal.Hand

end
-- ==== Proof.KI.R1.Obl.lean ====
import proofs.«138717_j6734508720258_1_alg».proof.Proof.KI.R1.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, PhiS1_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS1_acc V c t.val (Nat.le_of_lt t.isLt) (Nat.lt_of_le_of_lt (Nat.sub_le _ _) t.isLt)) $$ Hphi
  icases Hphi with ⟨⟨⟨%d, %hd, HS0⟩, Hoth⟩, Hg⟩
  rw [outsAt1_eq V c t d hd]; dsimp only
  iapply ((runAt1 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt1 owns; iexists _; isplitr
    swap; · iexact HS0
    ipureintro; exact View.read_writes_of_cover _ _ _ _ _ (runAt1 V c t d).covS
  by_cases h1 : t.val % 12 = 11
  · rw [show (dat1 V c).leavesExact 5 t = owns (c : Thread nD τ) (bufs1 t).o fullShare ((dat1 V c).after 5 t) from by
      unfold Dat.leavesExact; rw [liveAt1_5 t ((hcond1_1 t).mpr h1)], after1_5, outsAt1_eq V c t d hd]
    dsimp only; unfold outAt1 owns; iexists _; isplitr
    swap; · iexact H5
    ipureintro; exact View.read_writes_of_cover _ _ _ _ _ ((runAt1 V c t d).covO ((hcond1_1 t).mpr h1))
  · rw [Dat.leavesExact_idle (dat1 V c) 5 t (idleAt1_5 t (fun h => h1 ((hcond1_1 t).mp h))) (noFlush1_5 t (fun h => h1 ((hcond1_1 t).mp h)))]
    rw [runAt1_L5 V c t h1, View.writes_nil]
    iexists d5; unfold owns; iexists e5; isplitr; · ipureintro; exact he5
    iexact H5

theorem body_obligation1 (c : Dev nD) : BodyObligation (dat1 (F := F) V c) (defs₀ (F := F)) Variants.none () Set.univ := fun t => by
  rw [bigSep_W1, bigSep_W1]
  exact sound_body1 V c t

/-- After the last point the accumulator's contents are forgotten. -/
theorem hout1 (c : Dev nD) : (dat1 V c).Φ (Fin.last cfg1.N) ⊢ Pipeline.ΦA spec1 c := by
  rw [PhiA1_eq]
  refine (PhiS1_acc V c (Fin.last cfg1.N).val (Nat.le_of_lt_succ (Fin.last cfg1.N).isLt) (by rw [Fin.val_last]; have : cfg1.N = 144 := N_1; omega)).trans ?_
  iintro ⟨⟨⟨%d, -, HS0⟩, Hoth⟩, Hg⟩
  iframe Hoth Hg
  iexists d; iexact HS0

end Cert.KernelIdeal.Hand

end
-- ==== Proof.KI.R2.Runs.lean ====
import proofs.«138717_j6734508720258_1_alg».proof.Proof.KI.Args
import proofs.«138717_j6734508720258_1_alg».proof.Proof.Gen.KernelIdeal.Skeleton
import proofs.«138717_j6734508720258_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

theorem liveAt2 : ∀ w : Fin cfg2.W, w ≠ 5 → ∀ t : Fin cfg2.N, cfg2.idle w (grid2.coords t) = false := by decide +kernel

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel

theorem liveAt2_5 : ∀ t : Fin cfg2.N, cond2_1 (grid2.coords t) → cfg2.idle 5 (grid2.coords t) = false := by decide +kernel

abbrev VO2_5 : View sig .tc .vmem S1024x64 .f32 := (Memref.whole cc2_stg5_0 : Memref sig .tc .vmem S1024x64 .f32).view

abbrev scM2_0 : Memref sig .tc .vmem S1024x64 .f32 := Memref.whole cc2_scratch0
abbrev VS2_0 : View sig .tc .vmem S1024x64 .f32 := scM2_0.view

/-- The memrefs the body is called on at point t, and its input blocks there. -/
abbrev bufs2 (t : Fin cfg2.N) : Bufs :=
  ⟨win2_0.stage (cfg2.slots t 0), hstage2_0 ((cfg2.slots t 0).cast nbuf2_0), win2_1.stage (cfg2.slots t 1), hstage2_1 ((cfg2.slots t 1).cast nbuf2_1),
    win2_2.stage (cfg2.slots t 2), hstage2_2 ((cfg2.slots t 2).cast nbuf2_2), win2_3.stage (cfg2.slots t 3), hstage2_3 ((cfg2.slots t 3).cast nbuf2_3),
    win2_4.stage (cfg2.slots t 4), hstage2_4 ((cfg2.slots t 4).cast nbuf2_4), win2_5.stage (cfg2.slots t 5), hstage2_5 ((cfg2.slots t 5).cast nbuf2_5),
    scM2_0, Memref.isWhole_whole _⟩
abbrev ins2 (c : Dev nD) (t : Fin cfg2.N) : Ins F :=
  ⟨iblk2 V c 0 t, iblk2 V c 1 t, iblk2 V c 2 t, iblk2 V c 3 t, iblk2 V c 4 t⟩

/-- What the body does at grid coordinates i, the inputs at x and the accumulator at xs: the inputs are left as they
    were, the accumulator is overwritten entirely, and so is the output block when k = 11. -/
structure Run2 (c : Dev nD) (i : grid2.Coords) (m : Bufs) (x : Ins F) (xs : Vec F S1024x64 .f32) where
  L5 : List (View.Piece (Elt F) S1024x64 .f32)
  LS : List (View.Piece (Elt F) S1024x64 .f32)
  run : ∀ (xo : Vec F S1024x64 .f32) (E : Set ℕ) (K : PUnit → sProp 𝕄),
    iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ owns (c : Thread nD τ) m.o fullShare xo ∗ owns (c : Thread nD τ) m.acc fullShare xs
        ∗ (iprop(owns (c : Thread nD τ) m.a fullShare x.a ∗ owns (c : Thread nD τ) m.xk fullShare x.xk ∗ owns (c : Thread nD τ) m.xi fullShare x.xi ∗ owns (c : Thread nD τ) m.w fullShare x.w ∗ owns (c : Thread nD τ) m.b fullShare x.b ∗ (∃ f, ⌜m.o.view.read (Elt F) f = xo⌝ ∗ (m.o.view.loc (c : Thread nD τ) ↦[m.o.view.set]{fullShare} m.o.view.writes (Elt F) f L5)) ∗ (∃ f, m.acc.view.loc (c : Thread nD τ) ↦[m.acc.view.set]{fullShare} m.acc.view.writes (Elt F) f LS)) -∗ K ⟨⟩))
      ⊢ wp frame (wpE (defs₀ (F := F)) Variants.none c none) E (cc2__layer_kernel i m.a m.ha m.xk m.hxk m.xi m.hxi m.w m.hw m.b m.hb m.o m.ho m.acc m.hacc) K
  covS : ∀ y : S1024x64.Idx, ∃ pc ∈ LS, y ∈ pc.1.set
  covO : cond2_1 i → ∀ y : S1024x64.Idx, ∃ pc ∈ L5, y ∈ pc.1.set

end Cert.KernelIdeal.Hand

end
-- ==== Proof.KI.R2.RunA.lean ====
import proofs.«138717_j6734508720258_1_alg».proof.Proof.KI.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_A (c : Dev nD) (i : grid2.Coords) (m : Bufs) (hc0 : cond2_0 i) (hc1 : ¬cond2_1 i) (x : Ins F) (xs : Vec F S1024x64 .f32) :
    Run2 c i m x xs := by
  refine { L5 := [], LS := ?_, run := fun xo E K => ?run, covS := ?cov, covO := fun h => absurd h hc1 }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, Hk⟩
    obtain rfl := m.ha.eq_unread hf0; obtain rfl := m.hxk.eq_unread hf1; obtain rfl := m.hxi.eq_unread hf2; obtain rfl := m.hw.eq_unread hf3; obtain rfl := m.hb.eq_unread hf4
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R2.RunB.lean ====
import proofs.«138717_j6734508720258_1_alg».proof.Proof.KI.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_B (c : Dev nD) (i : grid2.Coords) (m : Bufs) (hc0 : ¬cond2_0 i) (hc1 : ¬cond2_1 i) (x : Ins F) (xs : Vec F S1024x64 .f32) :
    Run2 c i m x xs := by
  refine { L5 := [], LS := ?_, run := fun xo E K => ?run, covS := ?cov, covO := fun h => absurd h hc1 }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)

end Cert.KernelIdeal.Hand

end
-- ==== Proof.KI.R2.RunC.lean ====
import proofs.«138717_j6734508720258_1_alg».proof.Proof.KI.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def kernelRun2_C (c : Dev nD) (i : grid2.Coords) (m : Bufs) (hc0 : ¬cond2_0 i) (hc1 : cond2_1 i) (x : Ins F) (xs : Vec F S1024x64 .f32) :
    Run2 c i m x xs := by
  refine { L5 := ?_, LS := ?_, run := fun xo E K => ?run, covS := ?cov, covO := fun _ => ?covo }
  case run =>
    rw [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := m.ha.eq_unread hf0; obtain rfl := m.hxk.eq_unread hf1; obtain rfl := m.hxi.eq_unread hf2; obtain rfl := m.hw.eq_unread hf3; obtain rfl := m.hb.eq_unread hf4; obtain rfl := m.hacc.eq_unread hfs0
    sl_exec (disch := first | exact hc0 | exact hc1)
    sl_step
    iapply Hk
    isplitl [H0]
    · iexists _; isplitr; · ipureintro; exact m.ha.read_unread _
      iexact H0
    isplitl [H1]
    · iexists _; isplitr; · ipureintro; exact m.hxk.read_unread _
      iexact H1
    isplitl [H2]
    · iexists _; isplitr; · ipureintro; exact m.hxi.read_unread _
      iexact H2
    isplitl [H3]
    · iexists _; isplitr; · ipureintro; exact m.hw.read_unread _
      iexact H3
    isplitl [H4]
    · iexists _; isplitr; · ipureintro; exact m.hb.read_unread _
      iexact H4
    isplitl [H5]
    · iexists f5; isplitr; · ipureintro; exact hf5
      iexact H5
    iexists _; iexact HS0
  case cov => exact View.cover_of_tiledL _ S1024x64.size (by sl_kernel_rfl)
  case covo => exact View.cover_of_tiledL _ S1024x64.size (by sl_kernel_rfl)

end Cert.KernelIdeal.Hand

end
-- ==== Proof.KI.R2.Body.lean ====
import proofs.«138717_j6734508720258_1_alg».proof.Proof.KI.R2.RunA
import proofs.«138717_j6734508720258_1_alg».proof.Proof.KI.R2.RunB
import proofs.«138717_j6734508720258_1_alg».proof.Proof.KI.R2.RunC
import proofs.«138717_j6734508720258_1_alg».proof.Proof.Shares

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block and the accumulator as a run of the body leaves them. -/
def outAt2 {c : Dev nD} {i : grid2.Coords} {m : Bufs} {x : Ins F} {xs : Vec F S1024x64 .f32} (r : Run2 c i m x xs) : Vec F S1024x64 .f32 :=
  VO2_5.read (Elt F) (VO2_5.writes (Elt F) VO2_5.junk r.L5)
def accAt2 {c : Dev nD} {i : grid2.Coords} {m : Bufs} {x : Ins F} {xs : Vec F S1024x64 .f32} (r : Run2 c i m x xs) : Vec F S1024x64 .f32 :=
  VS2_0.read (Elt F) (VS2_0.writes (Elt F) VS2_0.junk r.LS)

/-- The body's run at point t, by the case of t mod 12. -/
def runAt2 (c : Dev nD) (t : Fin cfg2.N) (xs : Vec F S1024x64 .f32) : Run2 c (grid2.coords t) (bufs2 t) (ins2 V c t) xs :=
  if h0 : t.val % 12 = 0 then kernelRun2_A c _ _ ((hcond2_0 t).mpr h0) (fun h => by have := (hcond2_1 t).mp h; omega) _ xs
  else if h1 : t.val % 12 = 11 then kernelRun2_C c _ _ (fun h => h0 ((hcond2_0 t).mp h)) ((hcond2_1 t).mpr h1) _ xs
  else kernelRun2_B c _ _ (fun h => h0 ((hcond2_0 t).mp h)) (fun h => h1 ((hcond2_1 t).mp h)) _ xs

/-- Only a point with k = 11 stores into the output block. -/
theorem runAt2_L5 (c : Dev nD) (t : Fin cfg2.N) (h1 : ¬t.val % 12 = 11) (xs : Vec F S1024x64 .f32) : (runAt2 V c t xs).L5 = [] := by
  unfold runAt2
  by_cases h0 : t.val % 12 = 0
  · rw [dif_pos h0]; rfl
  · rw [dif_neg h0, dif_neg h1]; rfl

/-- Where the accumulator is reset, what the run leaves does not depend on what the accumulator held. -/
theorem runAt2_reset (c : Dev nD) (t : Fin cfg2.N) (h0 : t.val % 12 = 0) (xs xs' : Vec F S1024x64 .f32) :
    (outAt2 (runAt2 V c t xs), accAt2 (runAt2 V c t xs)) = (outAt2 (runAt2 V c t xs'), accAt2 (runAt2 V c t xs')) := by
  unfold runAt2; simp only [dif_pos h0]; rfl

/-- Output block and accumulator after the body at position n, the accumulator found at what position n - 1 left
    (before the first point, where it is reset, at the zero block). -/
def outsAt2 (c : Dev nD) : (n : ℕ) → n < cfg2.N → Vec F S1024x64 .f32 × Vec F S1024x64 .f32
  | 0, hn => (outAt2 (runAt2 V c ⟨0, hn⟩ k2_pay1), accAt2 (runAt2 V c ⟨0, hn⟩ k2_pay1))
  | n + 1, hn => (outAt2 (runAt2 V c ⟨n + 1, hn⟩ (outsAt2 c n (Nat.lt_of_succ_lt hn)).2), accAt2 (runAt2 V c ⟨n + 1, hn⟩ (outsAt2 c n (Nat.lt_of_succ_lt hn)).2))

/-- What the point before t left in the accumulator. -/
abbrev prev2 (c : Dev nD) (t : Fin cfg2.N) : Vec F S1024x64 .f32 :=
  (outsAt2 V c (t.val - 1) (Nat.lt_of_le_of_lt (Nat.sub_le _ _) t.isLt)).2

theorem outsAt2_eq (c : Dev nD) (t : Fin cfg2.N) (d : Vec F S1024x64 .f32) (hd : t.val ≠ 0 → d = prev2 V c t) :
    outsAt2 V c t.val t.isLt = (outAt2 (runAt2 V c t d), accAt2 (runAt2 V c t d)) := by
  obtain ⟨n, hn⟩ := t
  cases n with
  | zero => exact runAt2_reset V c ⟨0, hn⟩ (Nat.zero_mod _) _ _
  | succ n => rw [hd (Nat.succ_ne_zero n)]; rfl

def Others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

theorem PhiA2_eq (c : Dev nD) :
    (Pipeline.ΦA spec2 c : sProp 𝕄)
      = iprop(iprop((∃ d, owns (c : Thread nD τ) scM2_0 fullShare d) ∗ Others2 c) ∗ (∃ r, prngReg c r)) := by
  unfold Pipeline.ΦA Pipeline.scopedRest Others2
  rw [bigSep_erase (i := cc2_scratch0) (by decide)]
  simp only [scM2_0, owns_whole]; try rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Others2 c) ∗ (∃ r, prngReg c r))

theorem PhiS2_succ (c : Dev nD) (n : ℕ) (hn : n < cfg2.N) :
    PhiS2 V c (n + 1) hn = iprop(iprop(owns (c : Thread nD τ) scM2_0 fullShare ((outsAt2 V c n hn).2) ∗ Others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Others2 c) ∗ (∃ r, prngReg c r)) := by
  cases n with
  | zero => exact absurd rfl hz
  | succ n => rfl

/-- The invariant hands out the accumulator at contents d: past the first position what the point before left. -/
theorem PhiS2_acc (c : Dev nD) (n : ℕ) (h : n ≤ cfg2.N) (h' : n - 1 < cfg2.N) :
    PhiS2 V c n h ⊢ iprop(iprop((∃ d, ⌜n ≠ 0 → d = (outsAt2 V c (n - 1) h').2⌝ ∗ owns (c : Thread nD τ) scM2_0 fullShare d) ∗ Others2 c) ∗ (∃ r, prngReg c r)) := by
  cases n with
  | zero =>
    rw [show PhiS2 V c 0 h = _ from PhiA2_eq c]
    iintro ⟨⟨⟨%d, HS0⟩, Hoth⟩, Hg⟩
    iframe Hoth Hg
    iexists d; isplitr; · ipureintro; exact fun h => absurd rfl h
    iexact HS0
  | succ n =>
    rw [PhiS2_succ]
    iintro ⟨⟨HS0, Hoth⟩, Hg⟩
    iframe Hoth Hg
    iexists _; isplitr
    swap; · iexact HS0
    ipureintro; exact fun _ => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q := Cert.Shares.qWin
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = (ins2 V c t).a :=
  ((dat2 V c).before_in_eq_fetched 0 rfl (fun _ => rfl) (fun _ _ _ => rfl) (fun _ => rfl) t d).trans rfl
theorem before2_1 (c : Dev nD) (t : Fin cfg2.N) (d) : (dat2 V c).before 1 t d = (ins2 V c t).xk :=
  ((dat2 V c).before_in_eq_fetched 1 rfl (fun _ => rfl) (fun _ _ _ => rfl) (fun _ => rfl) t d).trans rfl
theorem before2_2 (c : Dev nD) (t : Fin cfg2.N) (d) : (dat2 V c).before 2 t d = (ins2 V c t).xi :=
  ((dat2 V c).before_in_eq_fetched 2 rfl (fun _ => rfl) (fun _ _ _ => rfl) (fun _ => rfl) t d).trans rfl
theorem before2_3 (c : Dev nD) (t : Fin cfg2.N) (d) : (dat2 V c).before 3 t d = (ins2 V c t).w :=
  ((dat2 V c).before_in_eq_fetched 3 rfl (fun _ => rfl) (fun _ _ _ => rfl) (fun _ => rfl) t d).trans rfl
theorem before2_4 (c : Dev nD) (t : Fin cfg2.N) (d) : (dat2 V c).before 4 t d = (ins2 V c t).b :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (bufs2 t).a fullShare ((dat2 V c).before 0 t d))
    ∗ (∃ d, owns (c : Thread nD τ) (bufs2 t).xk fullShare ((dat2 V c).before 1 t d))
    ∗ (∃ d, owns (c : Thread nD τ) (bufs2 t).xi fullShare ((dat2 V c).before 2 t d))
    ∗ (∃ d, owns (c : Thread nD τ) (bufs2 t).w fullShare ((dat2 V c).before 3 t d))
    ∗ (∃ d, owns (c : Thread nD τ) (bufs2 t).b fullShare ((dat2 V c).before 4 t d))
    ∗ (∃ d, owns (c : Thread nD τ) (bufs2 t).o fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (bufs2 t).a fullShare (ins2 V c t).a := by
  unfold Dat.leavesExact; rw [liveAt2 0 (by decide) t]; (try rfl)
theorem leaves2_1 (c : Dev nD) (t : Fin cfg2.N) : (dat2 V c).leavesExact 1 t = owns (c : Thread nD τ) (bufs2 t).xk fullShare (ins2 V c t).xk := by
  unfold Dat.leavesExact; rw [liveAt2 1 (by decide) t]; (try rfl)
theorem leaves2_2 (c : Dev nD) (t : Fin cfg2.N) : (dat2 V c).leavesExact 2 t = owns (c : Thread nD τ) (bufs2 t).xi fullShare (ins2 V c t).xi := by
  unfold Dat.leavesExact; rw [liveAt2 2 (by decide) t]; (try rfl)
theorem leaves2_3 (c : Dev nD) (t : Fin cfg2.N) : (dat2 V c).leavesExact 3 t = owns (c : Thread nD τ) (bufs2 t).w fullShare (ins2 V c t).w := by
  unfold Dat.leavesExact; rw [liveAt2 3 (by decide) t]; (try rfl)
theorem leaves2_4 (c : Dev nD) (t : Fin cfg2.N) : (dat2 V c).leavesExact 4 t = owns (c : Thread nD τ) (bufs2 t).b fullShare (ins2 V c t).b := by
  unfold Dat.leavesExact; rw [liveAt2 4 (by decide) t]; (try rfl)

end Cert.KernelIdeal.Hand

end
-- ==== Proof.KI.R2.Obl.lean ====
import proofs.«138717_j6734508720258_1_alg».proof.Proof.KI.R2.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, PhiS2_castSucc V c t]
  iintro ⟨Hphi, Ho, ⟨%d0, H0⟩, ⟨%d1, H1⟩, ⟨%d2, H2⟩, ⟨%d3, H3⟩, ⟨%d4, H4⟩, ⟨%d5, H5⟩⟩
  ihave Hphi := (PhiS2_acc V c t.val (Nat.le_of_lt t.isLt) (Nat.lt_of_le_of_lt (Nat.sub_le _ _) t.isLt)) $$ Hphi
  icases Hphi with ⟨⟨⟨%d, %hd, HS0⟩, Hoth⟩, Hg⟩
  rw [outsAt2_eq V c t d hd]; dsimp only
  iapply ((runAt2 V c t d).run _ Set.univ _)
  iframe H0 H1 H2 H3 H4 H5 HS0
  iintro ⟨H0, H1, H2, H3, H4, ⟨%e5, %he5, H5⟩, ⟨%es0, HS0⟩⟩
  iframe Hoth Hg Ho H0 H1 H2 H3 H4
  isplitl [HS0]
  · unfold accAt2 owns; iexists _; isplitr
    swap; · iexact HS0
    ipureintro; exact View.read_writes_of_cover _ _ _ _ _ (runAt2 V c t d).covS
  by_cases h1 : t.val % 12 = 11
  · rw [show (dat2 V c).leavesExact 5 t = owns (c : Thread nD τ) (bufs2 t).o fullShare ((dat2 V c).after 5 t) from by
      unfold Dat.leavesExact; rw [liveAt2_5 t ((hcond2_1 t).mpr h1)], after2_5, outsAt2_eq V c t d hd]
    dsimp only; unfold outAt2 owns; iexists _; isplitr
    swap; · iexact H5
    ipureintro; exact View.read_writes_of_cover _ _ _ _ _ ((runAt2 V c t d).covO ((hcond2_1 t).mpr h1))
  · rw [Dat.leavesExact_idle (dat2 V c) 5 t (idleAt2_5 t (fun h => h1 ((hcond2_1 t).mp h))) (noFlush2_5 t (fun h => h1 ((hcond2_1 t).mp h)))]
    rw [runAt2_L5 V c t h1, View.writes_nil]
    iexists d5; unfold owns; iexists e5; isplitr; · ipureintro; exact he5
    iexact H5

theorem body_obligation2 (c : Dev nD) : BodyObligation (dat2 (F := F) V c) (defs₀ (F := F)) Variants.none () Set.univ := fun t => by
  rw [bigSep_W2, bigSep_W2]
  exact sound_body2 V c t

/-- After the last point the accumulator's contents are forgotten. -/
theorem hout2 (c : Dev nD) : (dat2 V c).Φ (Fin.last cfg2.N) ⊢ Pipeline.ΦA spec2 c := by
  rw [PhiA2_eq]
  refine (PhiS2_acc V c (Fin.last cfg2.N).val (Nat.le_of_lt_succ (Fin.last cfg2.N).isLt) (by rw [Fin.val_last]; have : cfg2.N = 144 := N_2; omega)).trans ?_
  iintro ⟨⟨⟨%d, -, HS0⟩, Hoth⟩, Hg⟩
  iframe Hoth Hg
  iexists d; iexact HS0

end Cert.KernelIdeal.Hand

end
-- ==== Proof.KI.R0.Share.lean ====
import proofs.«138717_j6734508720258_1_alg».proof.Proof.Gen.KernelIdeal.Launch
import proofs.«138717_j6734508720258_1_alg».proof.Proof.Shares

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img0 : Finset.univ.image (Pipeline.arrRef spec0) = [main_arg2, main_v6, main_v11, main_v12, main_v13].toFinset := by decide

section
variable {c : Dev nD} (dat : Dat τ (Elt F) Unit ℕ (UR sig nD τ) ℕ cfg0 c)

theorem share0_0 (hq : dat.q = qWin) : dat.share 0 = fullShare := by unfold Dat.share; rw [hq]; rfl
theorem share0_1 (hq : dat.q = qWin) : dat.share 1 = qL := by unfold Dat.share; rw [hq]; rfl
theorem share0_2 (hq : dat.q = qWin) : dat.share 2 = qR := by unfold Dat.share; rw [hq]; rfl
theorem share0_3 (hq : dat.q = qWin) : dat.share 3 = fullShare := by unfold Dat.share; rw [hq]; rfl
theorem share0_4 (hq : dat.q = qWin) : dat.share 4 = fullShare := by unfold Dat.share; rw [hq]; rfl
theorem share0_5 : dat.share 5 = fullShare := by unfold Dat.share; rfl

theorem arrays_flat0 (G : (w : Fin cfg0.W) → Buf (Elt F) ((cfg0.win w).arr.view.loc (c : Thread nD τ))) :
    dat.arrays G = bigSep Finset.univ fun w : Fin cfg0.W => (((c : Thread nD τ).loc (Pipeline.arrRef spec0 w)) ↦{dat.share w} G w : sProp 𝕄) := by
  unfold Dat.arrays
  exact bigSep_congr fun w _ => by rw [(arr_whole0 w).set_eq_univ]

theorem arrBufs_chain0 (V : (b : Ref sig .tc) → Buf (Elt F) ((c : Thread nD τ).loc b)) :
    (Pipeline.arrBufs spec0 c V : sProp 𝕄) = (iprop((((c : Thread nD τ).loc main_arg2) ↦{fullShare} V main_arg2)
      ∗ (((c : Thread nD τ).loc main_v6) ↦{fullShare} V main_v6)
      ∗ (((c : Thread nD τ).loc main_v11) ↦{fullShare} V main_v11)
      ∗ (((c : Thread nD τ).loc main_v12) ↦{fullShare} V main_v12)
      ∗ (((c : Thread nD τ).loc main_v13) ↦{fullShare} V main_v13)) : sProp 𝕄) := by
  unfold Pipeline.arrBufs
  rw [bigSep_eq_bigSepL_of_eq _ img0 (by decide)]
  rfl

variable (hq : dat.q = qWin) (V : (b : Ref sig .tc) → Buf (Elt F) ((c : Thread nD τ).loc b))
  (G : (w : Fin cfg0.W) → Buf (Elt F) ((cfg0.win w).arr.view.loc (c : Thread nD τ)))
  (hG : ∀ w, G w = V (Pipeline.arrRef spec0 w))
include hq hG

theorem arr0_0 :
    (((c : Thread nD τ).loc (Pipeline.arrRef spec0 0)) ↦{dat.share 0} G 0 : sProp 𝕄)
      = (((c : Thread nD τ).loc main_arg2) ↦{fullShare} V main_arg2) := by
  rw [share0_0 dat hq, hG 0]
theorem arr0_1 :
    (((c : Thread nD τ).loc (Pipeline.arrRef spec0 1)) ↦{dat.share 1} G 1 : sProp 𝕄)
      = (((c : Thread nD τ).loc main_v6) ↦{qL} V main_v6) := by
  rw [share0_1 dat hq, hG 1]
theorem arr0_2 :
    (((c : Thread nD τ).loc (Pipeline.arrRef spec0 2)) ↦{dat.share 2} G 2 : sProp 𝕄)
      = (((c : Thread nD τ).loc main_v6) ↦{qR} V main_v6) := by
  rw [share0_2 dat hq, hG 2]
theorem arr0_3 :
    (((c : Thread nD τ).loc (Pipeline.arrRef spec0 3)) ↦{dat.share 3} G 3 : sProp 𝕄)
      = (((c : Thread nD τ).loc main_v11) ↦{fullShare} V main_v11) := by
  rw [share0_3 dat hq, hG 3]
theorem arr0_4 :
    (((c : Thread nD τ).loc (Pipeline.arrRef spec0 4)) ↦{dat.share 4} G 4 : sProp 𝕄)
      = (((c : Thread nD τ).loc main_v12) ↦{fullShare} V main_v12) := by
  rw [share0_4 dat hq, hG 4]
theorem arr0_5 :
    (((c : Thread nD τ).loc (Pipeline.arrRef spec0 5)) ↦{dat.share 5} G 5 : sProp 𝕄)
      = (((c : Thread nD τ).loc main_v13) ↦{fullShare} V main_v13) := by
  rw [share0_5 dat, hG 5]

theorem arrays_chain0 :
    dat.arrays G = (iprop((((c : Thread nD τ).loc main_arg2) ↦{fullShare} V main_arg2)
      ∗ (((c : Thread nD τ).loc main_v6) ↦{qL} V main_v6)
      ∗ (((c : Thread nD τ).loc main_v6) ↦{qR} V main_v6)
      ∗ (((c : Thread nD τ).loc main_v11) ↦{fullShare} V main_v11)
      ∗ (((c : Thread nD τ).loc main_v12) ↦{fullShare} V main_v12)
      ∗ (((c : Thread nD τ).loc main_v13) ↦{fullShare} V main_v13)) : sProp 𝕄) := by
  rw [arrays_flat0, bigSep_W0, arr0_0 dat hq V G hG, arr0_1 dat hq V G hG, arr0_2 dat hq V G hG, arr0_3 dat hq V G hG,
    arr0_4 dat hq V G hG, arr0_5 dat hq V G hG]

theorem arrays_of_arrBufs0 :
    (Pipeline.arrBufs spec0 c V : sProp 𝕄) ⊢ dat.arrays G := by
  rw [arrays_chain0 dat hq V G hG, arrBufs_chain0]
  iintro ⟨H0, H6, H11, H12, H13⟩
  ihave H6 := (pointsTo_share full_mem_halves).1 $$ H6
  icases H6 with ⟨HL, HR⟩
  iframe

theorem arrBufs_of_arrays0 :
    dat.arrays G ⊢ (Pipeline.arrBufs spec0 c V : sProp 𝕄) := by
  rw [arrays_chain0 dat hq V G hG, arrBufs_chain0]
  iintro ⟨H0, HL, HR, H11, H12, H13⟩
  iframe H0 H11 H12 H13
  iapply (pointsTo_share full_mem_halves).2
  iframe

end
end Cert.KernelIdeal.Hand

end
-- ==== Proof.KI.R0.Seg.lean ====
import proofs.«138717_j6734508720258_1_alg».proof.Proof.KI.R0.Share
import Idealize.ShloMosaic.Lib.Pipeline.Frame

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped0 : ∀ w : Fin cfg0.W, (Pipeline.arrRef spec0 w).isScoped = false := by decide

theorem split0 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec0 c V : sProp 𝕄) ∗ Pipeline.unscopedRest spec0 c V) :=
  Pipeline.unscopedBufs_split₀ cfgs (0 : Fin 3) arr_unscoped0 c V

theorem entry0 {c : Dev nD} (dat : Dat τ (Elt F) Unit ℕ (UR sig nD τ) ℕ cfg0 c) (hq : dat.q = qWin)
    (Win : Valuation τ sig (Elt F)) (hA : ∀ w, dat.A w = Win (Proc.devRef .tc (Pipeline.arrRef spec0 w))) :
    (StableHlo.held (c : Thread nD τ) (Pipeline.ucRefs τ sig) Win : sProp 𝕄)
      ⊢ iprop(dat.arrays (dat.arrAt · 0) ∗ Pipeline.unscopedRest spec0 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split0 c (fun b => Win (Proc.devRef .tc b))]
  exact BI.sep_mono (arrays_of_arrBufs0 dat hq (fun b => Win (Proc.devRef .tc b)) (dat.arrAt · 0) (fun w => hA w)) (BI.Entails.refl _)

theorem exit0 {c : Dev nD} (dat : Dat τ (Elt F) Unit ℕ (UR sig nD τ) ℕ cfg0 c) (hq : dat.q = qWin)
    (Win Wout : Valuation τ sig (Elt F))
    (hF : ∀ w, dat.arrAt w cfg0.N = Wout (Proc.devRef .tc (Pipeline.arrRef spec0 w)))
    (hrest : ∀ b : Ref sig .tc, b ∉ Finset.univ.image (Pipeline.arrRef spec0) → Wout (Proc.devRef .tc b) = Win (Proc.devRef .tc b)) :
    (iprop(dat.arrays (dat.arrAt · cfg0.N) ∗ Pipeline.unscopedRest spec0 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split0 c (fun b => Wout (Proc.devRef .tc b))]
  refine BI.sep_mono (arrBufs_of_arrays0 dat hq (fun b => Wout (Proc.devRef .tc b)) (dat.arrAt · cfg0.N) (fun w => hF w)) ?_
  unfold Pipeline.unscopedRest
  exact Entails.of_eq (bigSep_congr fun b hb => by dsimp only; rw [hrest b (Finset.mem_sdiff.mp hb).2])

end Cert.KernelIdeal.Hand

end
-- ==== Proof.KI.R1.Share.lean ====
import proofs.«138717_j6734508720258_1_alg».proof.Proof.Gen.KernelIdeal.Launch
import proofs.«138717_j6734508720258_1_alg».proof.Proof.Shares

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img1 : Finset.univ.image (Pipeline.arrRef spec1) = [main_arg2, main_v13, main_v18, main_v19, main_v20].toFinset := by decide

section
variable {c : Dev nD} (dat : Dat τ (Elt F) Unit ℕ (UR sig nD τ) ℕ cfg1 c)

theorem share1_0 (hq : dat.q = qWin) : dat.share 0 = fullShare := by unfold Dat.share; rw [hq]; rfl
theorem share1_1 (hq : dat.q = qWin) : dat.share 1 = qL := by unfold Dat.share; rw [hq]; rfl
theorem share1_2 (hq : dat.q = qWin) : dat.share 2 = qR := by unfold Dat.share; rw [hq]; rfl
theorem share1_3 (hq : dat.q = qWin) : dat.share 3 = fullShare := by unfold Dat.share; rw [hq]; rfl
theorem share1_4 (hq : dat.q = qWin) : dat.share 4 = fullShare := by unfold Dat.share; rw [hq]; rfl
theorem share1_5 : dat.share 5 = fullShare := by unfold Dat.share; rfl

theorem arrays_flat1 (G : (w : Fin cfg1.W) → Buf (Elt F) ((cfg1.win w).arr.view.loc (c : Thread nD τ))) :
    dat.arrays G = bigSep Finset.univ fun w : Fin cfg1.W => (((c : Thread nD τ).loc (Pipeline.arrRef spec1 w)) ↦{dat.share w} G w : sProp 𝕄) := by
  unfold Dat.arrays
  exact bigSep_congr fun w _ => by rw [(arr_whole1 w).set_eq_univ]

theorem arrBufs_chain1 (V : (b : Ref sig .tc) → Buf (Elt F) ((c : Thread nD τ).loc b)) :
    (Pipeline.arrBufs spec1 c V : sProp 𝕄) = (iprop((((c : Thread nD τ).loc main_arg2) ↦{fullShare} V main_arg2)
      ∗ (((c : Thread nD τ).loc main_v13) ↦{fullShare} V main_v13)
      ∗ (((c : Thread nD τ).loc main_v18) ↦{fullShare} V main_v18)
      ∗ (((c : Thread nD τ).loc main_v19) ↦{fullShare} V main_v19)
      ∗ (((c : Thread nD τ).loc main_v20) ↦{fullShare} V main_v20)) : sProp 𝕄) := by
  unfold Pipeline.arrBufs
  rw [bigSep_eq_bigSepL_of_eq _ img1 (by decide)]
  rfl

variable (hq : dat.q = qWin) (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))
include hq hG

theorem arr1_0 :
    (((c : Thread nD τ).loc (Pipeline.arrRef spec1 0)) ↦{dat.share 0} G 0 : sProp 𝕄)
      = (((c : Thread nD τ).loc main_arg2) ↦{fullShare} V main_arg2) := by
  rw [share1_0 dat hq, hG 0]
theorem arr1_1 :
    (((c : Thread nD τ).loc (Pipeline.arrRef spec1 1)) ↦{dat.share 1} G 1 : sProp 𝕄)
      = (((c : Thread nD τ).loc main_v13) ↦{qL} V main_v13) := by
  rw [share1_1 dat hq, hG 1]
theorem arr1_2 :
    (((c : Thread nD τ).loc (Pipeline.arrRef spec1 2)) ↦{dat.share 2} G 2 : sProp 𝕄)
      = (((c : Thread nD τ).loc main_v13) ↦{qR} V main_v13) := by
  rw [share1_2 dat hq, hG 2]
theorem arr1_3 :
    (((c : Thread nD τ).loc (Pipeline.arrRef spec1 3)) ↦{dat.share 3} G 3 : sProp 𝕄)
      = (((c : Thread nD τ).loc main_v18) ↦{fullShare} V main_v18) := by
  rw [share1_3 dat hq, hG 3]
theorem arr1_4 :
    (((c : Thread nD τ).loc (Pipeline.arrRef spec1 4)) ↦{dat.share 4} G 4 : sProp 𝕄)
      = (((c : Thread nD τ).loc main_v19) ↦{fullShare} V main_v19) := by
  rw [share1_4 dat hq, hG 4]
theorem arr1_5 :
    (((c : Thread nD τ).loc (Pipeline.arrRef spec1 5)) ↦{dat.share 5} G 5 : sProp 𝕄)
      = (((c : Thread nD τ).loc main_v20) ↦{fullShare} V main_v20) := by
  rw [share1_5 dat, hG 5]

theorem arrays_chain1 :
    dat.arrays G = (iprop((((c : Thread nD τ).loc main_arg2) ↦{fullShare} V main_arg2)
      ∗ (((c : Thread nD τ).loc main_v13) ↦{qL} V main_v13)
      ∗ (((c : Thread nD τ).loc main_v13) ↦{qR} V main_v13)
      ∗ (((c : Thread nD τ).loc main_v18) ↦{fullShare} V main_v18)
      ∗ (((c : Thread nD τ).loc main_v19) ↦{fullShare} V main_v19)
      ∗ (((c : Thread nD τ).loc main_v20) ↦{fullShare} V main_v20)) : sProp 𝕄) := by
  rw [arrays_flat1, bigSep_W1, arr1_0 dat hq V G hG, arr1_1 dat hq V G hG, arr1_2 dat hq V G hG, arr1_3 dat hq V G hG,
    arr1_4 dat hq V G hG, arr1_5 dat hq V G hG]

theorem arrays_of_arrBufs1 :
    (Pipeline.arrBufs spec1 c V : sProp 𝕄) ⊢ dat.arrays G := by
  rw [arrays_chain1 dat hq V G hG, arrBufs_chain1]
  iintro ⟨H0, H6, H11, H12, H13⟩
  ihave H6 := (pointsTo_share full_mem_halves).1 $$ H6
  icases H6 with ⟨HL, HR⟩
  iframe

theorem arrBufs_of_arrays1 :
    dat.arrays G ⊢ (Pipeline.arrBufs spec1 c V : sProp 𝕄) := by
  rw [arrays_chain1 dat hq V G hG, arrBufs_chain1]
  iintro ⟨H0, HL, HR, H11, H12, H13⟩
  iframe H0 H11 H12 H13
  iapply (pointsTo_share full_mem_halves).2
  iframe

end
end Cert.KernelIdeal.Hand

end
-- ==== Proof.KI.R1.Seg.lean ====
import proofs.«138717_j6734508720258_1_alg».proof.Proof.KI.R1.Share
import Idealize.ShloMosaic.Lib.Pipeline.Frame

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped1 : ∀ w : Fin cfg1.W, (Pipeline.arrRef spec1 w).isScoped = false := by decide

theorem split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec1 c V : sProp 𝕄) ∗ Pipeline.unscopedRest spec1 c V) :=
  Pipeline.unscopedBufs_split₀ cfgs (1 : Fin 3) arr_unscoped1 c V

theorem entry1 {c : Dev nD} (dat : Dat τ (Elt F) Unit ℕ (UR sig nD τ) ℕ cfg1 c) (hq : dat.q = qWin)
    (Win : Valuation τ sig (Elt F)) (hA : ∀ w, dat.A w = Win (Proc.devRef .tc (Pipeline.arrRef spec1 w))) :
    (StableHlo.held (c : Thread nD τ) (Pipeline.ucRefs τ sig) Win : sProp 𝕄)
      ⊢ iprop(dat.arrays (dat.arrAt · 0) ∗ Pipeline.unscopedRest spec1 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split1 c (fun b => Win (Proc.devRef .tc b))]
  exact BI.sep_mono (arrays_of_arrBufs1 dat hq (fun b => Win (Proc.devRef .tc b)) (dat.arrAt · 0) (fun w => hA w)) (BI.Entails.refl _)

theorem exit1 {c : Dev nD} (dat : Dat τ (Elt F) Unit ℕ (UR sig nD τ) ℕ cfg1 c) (hq : dat.q = qWin)
    (Win Wout : Valuation τ sig (Elt F))
    (hF : ∀ w, dat.arrAt w cfg1.N = Wout (Proc.devRef .tc (Pipeline.arrRef spec1 w)))
    (hrest : ∀ b : Ref sig .tc, b ∉ Finset.univ.image (Pipeline.arrRef spec1) → Wout (Proc.devRef .tc b) = Win (Proc.devRef .tc b)) :
    (iprop(dat.arrays (dat.arrAt · cfg1.N) ∗ Pipeline.unscopedRest spec1 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split1 c (fun b => Wout (Proc.devRef .tc b))]
  refine BI.sep_mono (arrBufs_of_arrays1 dat hq (fun b => Wout (Proc.devRef .tc b)) (dat.arrAt · cfg1.N) (fun w => hF w)) ?_
  unfold Pipeline.unscopedRest
  exact Entails.of_eq (bigSep_congr fun b hb => by dsimp only; rw [hrest b (Finset.mem_sdiff.mp hb).2])

end Cert.KernelIdeal.Hand

end
-- ==== Proof.KI.R2.Share.lean ====
import proofs.«138717_j6734508720258_1_alg».proof.Proof.Gen.KernelIdeal.Launch
import proofs.«138717_j6734508720258_1_alg».proof.Proof.Shares

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem img2 : Finset.univ.image (Pipeline.arrRef spec2) = [main_arg2, main_v20, main_v25, main_v26, main_v27].toFinset := by decide

section
variable {c : Dev nD} (dat : Dat τ (Elt F) Unit ℕ (UR sig nD τ) ℕ cfg2 c)

theorem share2_0 (hq : dat.q = qWin) : dat.share 0 = fullShare := by unfold Dat.share; rw [hq]; rfl
theorem share2_1 (hq : dat.q = qWin) : dat.share 1 = qL := by unfold Dat.share; rw [hq]; rfl
theorem share2_2 (hq : dat.q = qWin) : dat.share 2 = qR := by unfold Dat.share; rw [hq]; rfl
theorem share2_3 (hq : dat.q = qWin) : dat.share 3 = fullShare := by unfold Dat.share; rw [hq]; rfl
theorem share2_4 (hq : dat.q = qWin) : dat.share 4 = fullShare := by unfold Dat.share; rw [hq]; rfl
theorem share2_5 : dat.share 5 = fullShare := by unfold Dat.share; rfl

theorem arrays_flat2 (G : (w : Fin cfg2.W) → Buf (Elt F) ((cfg2.win w).arr.view.loc (c : Thread nD τ))) :
    dat.arrays G = bigSep Finset.univ fun w : Fin cfg2.W => (((c : Thread nD τ).loc (Pipeline.arrRef spec2 w)) ↦{dat.share w} G w : sProp 𝕄) := by
  unfold Dat.arrays
  exact bigSep_congr fun w _ => by rw [(arr_whole2 w).set_eq_univ]

theorem arrBufs_chain2 (V : (b : Ref sig .tc) → Buf (Elt F) ((c : Thread nD τ).loc b)) :
    (Pipeline.arrBufs spec2 c V : sProp 𝕄) = (iprop((((c : Thread nD τ).loc main_arg2) ↦{fullShare} V main_arg2)
      ∗ (((c : Thread nD τ).loc main_v20) ↦{fullShare} V main_v20)
      ∗ (((c : Thread nD τ).loc main_v25) ↦{fullShare} V main_v25)
      ∗ (((c : Thread nD τ).loc main_v26) ↦{fullShare} V main_v26)
      ∗ (((c : Thread nD τ).loc main_v27) ↦{fullShare} V main_v27)) : sProp 𝕄) := by
  unfold Pipeline.arrBufs
  rw [bigSep_eq_bigSepL_of_eq _ img2 (by decide)]
  rfl

variable (hq : dat.q = qWin) (V : (b : Ref sig .tc) → Buf (Elt F) ((c : Thread nD τ).loc b))
  (G : (w : Fin cfg2.W) → Buf (Elt F) ((cfg2.win w).arr.view.loc (c : Thread nD τ)))
  (hG : ∀ w, G w = V (Pipeline.arrRef spec2 w))
include hq hG

theorem arr2_0 :
    (((c : Thread nD τ).loc (Pipeline.arrRef spec2 0)) ↦{dat.share 0} G 0 : sProp 𝕄)
      = (((c : Thread nD τ).loc main_arg2) ↦{fullShare} V main_arg2) := by
  rw [share2_0 dat hq, hG 0]
theorem arr2_1 :
    (((c : Thread nD τ).loc (Pipeline.arrRef spec2 1)) ↦{dat.share 1} G 1 : sProp 𝕄)
      = (((c : Thread nD τ).loc main_v20) ↦{qL} V main_v20) := by
  rw [share2_1 dat hq, hG 1]
theorem arr2_2 :
    (((c : Thread nD τ).loc (Pipeline.arrRef spec2 2)) ↦{dat.share 2} G 2 : sProp 𝕄)
      = (((c : Thread nD τ).loc main_v20) ↦{qR} V main_v20) := by
  rw [share2_2 dat hq, hG 2]
theorem arr2_3 :
    (((c : Thread nD τ).loc (Pipeline.arrRef spec2 3)) ↦{dat.share 3} G 3 : sProp 𝕄)
      = (((c : Thread nD τ).loc main_v25) ↦{fullShare} V main_v25) := by
  rw [share2_3 dat hq, hG 3]
theorem arr2_4 :
    (((c : Thread nD τ).loc (Pipeline.arrRef spec2 4)) ↦{dat.share 4} G 4 : sProp 𝕄)
      = (((c : Thread nD τ).loc main_v26) ↦{fullShare} V main_v26) := by
  rw [share2_4 dat hq, hG 4]
theorem arr2_5 :
    (((c : Thread nD τ).loc (Pipeline.arrRef spec2 5)) ↦{dat.share 5} G 5 : sProp 𝕄)
      = (((c : Thread nD τ).loc main_v27) ↦{fullShare} V main_v27) := by
  rw [share2_5 dat, hG 5]

theorem arrays_chain2 :
    dat.arrays G = (iprop((((c : Thread nD τ).loc main_arg2) ↦{fullShare} V main_arg2)
      ∗ (((c : Thread nD τ).loc main_v20) ↦{qL} V main_v20)
      ∗ (((c : Thread nD τ).loc main_v20) ↦{qR} V main_v20)
      ∗ (((c : Thread nD τ).loc main_v25) ↦{fullShare} V main_v25)
      ∗ (((c : Thread nD τ).loc main_v26) ↦{fullShare} V main_v26)
      ∗ (((c : Thread nD τ).loc main_v27) ↦{fullShare} V main_v27)) : sProp 𝕄) := by
  rw [arrays_flat2, bigSep_W2, arr2_0 dat hq V G hG, arr2_1 dat hq V G hG, arr2_2 dat hq V G hG, arr2_3 dat hq V G hG,
    arr2_4 dat hq V G hG, arr2_5 dat hq V G hG]

theorem arrays_of_arrBufs2 :
    (Pipeline.arrBufs spec2 c V : sProp 𝕄) ⊢ dat.arrays G := by
  rw [arrays_chain2 dat hq V G hG, arrBufs_chain2]
  iintro ⟨H0, H6, H11, H12, H13⟩
  ihave H6 := (pointsTo_share full_mem_halves).1 $$ H6
  icases H6 with ⟨HL, HR⟩
  iframe

theorem arrBufs_of_arrays2 :
    dat.arrays G ⊢ (Pipeline.arrBufs spec2 c V : sProp 𝕄) := by
  rw [arrays_chain2 dat hq V G hG, arrBufs_chain2]
  iintro ⟨H0, HL, HR, H11, H12, H13⟩
  iframe H0 H11 H12 H13
  iapply (pointsTo_share full_mem_halves).2
  iframe

end
end Cert.KernelIdeal.Hand

end
-- ==== Proof.KI.R2.Seg.lean ====
import proofs.«138717_j6734508720258_1_alg».proof.Proof.KI.R2.Share
import Idealize.ShloMosaic.Lib.Pipeline.Frame

noncomputable section

namespace Cert.KernelIdeal.Hand

open Cert.KernelIdeal Cert.KernelIdeal.Gen Cert.Shares
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem arr_unscoped2 : ∀ w : Fin cfg2.W, (Pipeline.arrRef spec2 w).isScoped = false := by decide

theorem split2 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec2 c V : sProp 𝕄) ∗ Pipeline.unscopedRest spec2 c V) :=
  Pipeline.unscopedBufs_split₀ cfgs (2 : Fin 3) arr_unscoped2 c V

theorem entry2 {c : Dev nD} (dat : Dat τ (Elt F) Unit ℕ (UR sig nD τ) ℕ cfg2 c) (hq : dat.q = qWin)
    (Win : Valuation τ sig (Elt F)) (hA : ∀ w, dat.A w = Win (Proc.devRef .tc (Pipeline.arrRef spec2 w))) :
    (StableHlo.held (c : Thread nD τ) (Pipeline.ucRefs τ sig) Win : sProp 𝕄)
      ⊢ iprop(dat.arrays (dat.arrAt · 0) ∗ Pipeline.unscopedRest spec2 c (fun b => Win (Proc.devRef .tc b))) := by
  have h1 : (unscopedBufs (Ix := Unit) (Name := ℕ) (U := UR sig nD τ) (Lvl := ℕ) c (fun b => Win (Proc.devRef .tc b)) : sProp 𝕄)
      = StableHlo.held (c : Thread nD τ) (Pipeline.ucRefs τ sig) Win := Pipeline.unscopedBufs_held c Win
  rw [← h1, split2 c (fun b => Win (Proc.devRef .tc b))]
  exact BI.sep_mono (arrays_of_arrBufs2 dat hq (fun b => Win (Proc.devRef .tc b)) (dat.arrAt · 0) (fun w => hA w)) (BI.Entails.refl _)

theorem exit2 {c : Dev nD} (dat : Dat τ (Elt F) Unit ℕ (UR sig nD τ) ℕ cfg2 c) (hq : dat.q = qWin)
    (Win Wout : Valuation τ sig (Elt F))
    (hF : ∀ w, dat.arrAt w cfg2.N = Wout (Proc.devRef .tc (Pipeline.arrRef spec2 w)))
    (hrest : ∀ b : Ref sig .tc, b ∉ Finset.univ.image (Pipeline.arrRef spec2) → Wout (Proc.devRef .tc b) = Win (Proc.devRef .tc b)) :
    (iprop(dat.arrays (dat.arrAt · cfg2.N) ∗ Pipeline.unscopedRest spec2 c (fun b => Win (Proc.devRef .tc b))) : sProp 𝕄)
      ⊢ StableHlo.held (c : Thread nD τ) (Pipeline.ucRefs τ sig) Wout := by
  have h1 : (unscopedBufs (Ix := Unit) (Name := ℕ) (U := UR sig nD τ) (Lvl := ℕ) c (fun b => Wout (Proc.devRef .tc b)) : sProp 𝕄)
      = StableHlo.held (c : Thread nD τ) (Pipeline.ucRefs τ sig) Wout := Pipeline.unscopedBufs_held c Wout
  rw [← h1, split2 c (fun b => Wout (Proc.devRef .tc b))]
  refine BI.sep_mono (arrBufs_of_arrays2 dat hq (fun b => Wout (Proc.devRef .tc b)) (dat.arrAt · cfg2.N) (fun w => hF w)) ?_
  unfold Pipeline.unscopedRest
  exact Entails.of_eq (bigSep_congr fun b hb => by dsimp only; rw [hrest b (Finset.mem_sdiff.mp hb).2])

end Cert.KernelIdeal.Hand

end
-- ==== Proof.KI.Launch.lean ====
import proofs.«138717_j6734508720258_1_alg».proof.Proof.Gen.KernelIdeal.Regions
import proofs.«138717_j6734508720258_1_alg».proof.Proof.KI.R0.Obl
import proofs.«138717_j6734508720258_1_alg».proof.Proof.KI.R1.Obl
import proofs.«138717_j6734508720258_1_alg».proof.Proof.KI.R2.Obl
import proofs.«138717_j6734508720258_1_alg».proof.Proof.KI.R0.Seg
import proofs.«138717_j6734508720258_1_alg».proof.Proof.KI.R1.Seg
import proofs.«138717_j6734508720258_1_alg».proof.Proof.KI.R2.Seg
import Idealize.ShloMosaic.Lib.Pipeline.RegionsLoop

noncomputable section

namespace Cert.KernelIdeal.Hand

open Cert.KernelIdeal Cert.KernelIdeal.Gen Cert.Shares
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) (c : Dev nD) (b : Ref sig .tc) : Buf (Elt F) ((c : Thread nD τ).loc b) :=
  W c (Proc.devRef .tc b)

def O2 (c : Dev nD) : Buf (Elt F) ((c : Thread nD τ).loc main_v13) := (dat0 (rd (V1 m)) c).arrAt 5 cfg0.N
def outsA : Outs (F := F) := fun _ r c => Function.update (V0 m c) (Proc.devRef .tc main_v13) (O2 m c) (Proc.devRef .tc r)

def O4 (c : Dev nD) : Buf (Elt F) ((c : Thread nD τ).loc main_v20) := (dat1 (rd (V3 m (outsA m))) c).arrAt 5 cfg1.N
def outsB : Outs (F := F) := fun J r c => match J with
  | 2 => outsA m 2 r c
  | _ => Function.update (V0 m c) (Proc.devRef .tc main_v20) (O4 m c) (Proc.devRef .tc r)

def O6 (c : Dev nD) : Buf (Elt F) ((c : Thread nD τ).loc main_v27) := (dat2 (rd (V5 m (outsB m))) c).arrAt 5 cfg2.N

def outs : Outs (F := F) := fun J r c => match J with
  | 2 => outsA m 2 r c
  | 4 => outsB m 4 r c
  | _ => Function.update (V0 m c) (Proc.devRef .tc main_v27) (O6 m c) (Proc.devRef .tc r)

theorem outs_main_v13 (c : Dev nD) : outs m 2 main_v13 c = O2 m c := by
  show Function.update (V0 m c) (Proc.devRef .tc main_v13) (O2 m c) (Proc.devRef .tc main_v13) = O2 m c
  exact Function.update_self _ _ _
theorem outs_main_v20 (c : Dev nD) : outs m 4 main_v20 c = O4 m c := by
  show Function.update (V0 m c) (Proc.devRef .tc main_v20) (O4 m c) (Proc.devRef .tc main_v20) = O4 m c
  exact Function.update_self _ _ _
theorem outs_main_v27 (c : Dev nD) : outs m 6 main_v27 c = O6 m c := by
  show Function.update (V0 m c) (Proc.devRef .tc main_v27) (O6 m c) (Proc.devRef .tc main_v27) = O6 m c
  exact Function.update_self _ _ _

theorem V3_stage (c : Dev nD) : V3 m (outs m) c = V3 m (outsA m) c := rfl
theorem V5_stage (c : Dev nD) : V5 m (outs m) c = V5 m (outsB m) c := rfl

def pdats : (p : Fin 3) → (c : Dev nD) → Dat τ (Elt F) Unit ℕ (UR sig nD τ) ℕ (cfgs p) c
  | ⟨0, _⟩ => fun c => dat0 (rd (V1 m)) c
  | ⟨1, _⟩ => fun c => dat1 (rd (V3 m (outsA m))) c
  | ⟨2, _⟩ => fun c => dat2 (rd (V5 m (outsB m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 4 → Dev nD → sProp 𝕄 := fun _ c => R c
theorem hE3 (c : Dev nD) : E (F := F) 3 c ⊢ (iprop(∃ W, owes (c : Thread nD τ) (0 : CellTallies nD τ sig Unit) W) : sProp 𝕄) := by
  iintro ⟨-, HO⟩; iexact HO

theorem hA0 (c : Dev nD) (w : Fin cfg0.W) : (pdats m 0 c).A w = V1 m c (Proc.devRef .tc (Pipeline.arrRef spec0 w)) :=
  A_eq0 (rd (V1 m)) c w

theorem hF0 (c : Dev nD) (w : Fin cfg0.W) : (pdats m 0 c).arrAt w cfg0.N = V2 m (outs m) c (Proc.devRef .tc (Pipeline.arrRef spec0 w)) := by
  by_cases hw : w = 5
  · subst hw
    show O2 m c = Function.update (V1 m c) (Proc.devRef .tc main_v13) (outs m 2 main_v13 c) (Proc.devRef .tc main_v13)
    rw [Function.update_self]
    exact (outs_main_v13 m c).symm
  · have hin : (cfg0.win w).isOut = false := (by decide : ∀ w : Fin 6, w ≠ 5 → (cfg0.win w).isOut = false) w hw
    have hne : Pipeline.arrRef spec0 w ∉ ([main_v13] : List (Ref sig .tc)) :=
      (by decide : ∀ w : Fin 6, w ≠ 5 → Pipeline.arrRef spec0 w ∉ ([main_v13] : List (Ref sig .tc))) w hw
    exact ((pdats m 0 c).arrAt_in w hin _).trans ((hA0 m c w).trans (V2_of m (outs m) c _ hne).symm)

theorem hrest0 (c : Dev nD) (b : Ref sig .tc) (hb : b ∉ Finset.univ.image (Pipeline.arrRef spec0)) :
    V2 m (outs m) c (Proc.devRef .tc b) = V1 m c (Proc.devRef .tc b) :=
  V2_of m (outs m) c b (fun h => hb (by
    rw [List.mem_singleton] at h; subst h
    exact Finset.mem_image.mpr ⟨5, Finset.mem_univ _, rfl⟩))

theorem hA1 (c : Dev nD) (w : Fin cfg1.W) : (pdats m 1 c).A w = V3 m (outs m) c (Proc.devRef .tc (Pipeline.arrRef spec1 w)) :=
  (A_eq1 (rd (V3 m (outsA m))) c w).trans (congrFun (V3_stage m c).symm _)

theorem hF1 (c : Dev nD) (w : Fin cfg1.W) : (pdats m 1 c).arrAt w cfg1.N = V4 m (outs m) c (Proc.devRef .tc (Pipeline.arrRef spec1 w)) := by
  by_cases hw : w = 5
  · subst hw
    show O4 m c = Function.update (V3 m (outs m) c) (Proc.devRef .tc main_v20) (outs m 4 main_v20 c) (Proc.devRef .tc main_v20)
    rw [Function.update_self]
    exact (outs_main_v20 m c).symm
  · have hin : (cfg1.win w).isOut = false := (by decide : ∀ w : Fin 6, w ≠ 5 → (cfg1.win w).isOut = false) w hw
    have hne : Pipeline.arrRef spec1 w ∉ ([main_v20] : List (Ref sig .tc)) :=
      (by decide : ∀ w : Fin 6, w ≠ 5 → Pipeline.arrRef spec1 w ∉ ([main_v20] : List (Ref sig .tc))) w hw
    exact ((pdats m 1 c).arrAt_in w hin _).trans ((hA1 m c w).trans (V4_of m (outs m) c _ hne).symm)

theorem hrest1 (c : Dev nD) (b : Ref sig .tc) (hb : b ∉ Finset.univ.image (Pipeline.arrRef spec1)) :
    V4 m (outs m) c (Proc.devRef .tc b) = V3 m (outs m) c (Proc.devRef .tc b) :=
  V4_of m (outs m) c b (fun h => hb (by
    rw [List.mem_singleton] at h; subst h
    exact Finset.mem_image.mpr ⟨5, Finset.mem_univ _, rfl⟩))

theorem hA2 (c : Dev nD) (w : Fin cfg2.W) : (pdats m 2 c).A w = V5 m (outs m) c (Proc.devRef .tc (Pipeline.arrRef spec2 w)) :=
  (A_eq2 (rd (V5 m (outsB m))) c w).trans (congrFun (V5_stage m c).symm _)

theorem hF2 (c : Dev nD) (w : Fin cfg2.W) : (pdats m 2 c).arrAt w cfg2.N = V6 m (outs m) c (Proc.devRef .tc (Pipeline.arrRef spec2 w)) := by
  by_cases hw : w = 5
  · subst hw
    show O6 m c = Function.update (V5 m (outs m) c) (Proc.devRef .tc main_v27) (outs m 6 main_v27 c) (Proc.devRef .tc main_v27)
    rw [Function.update_self]
    exact (outs_main_v27 m c).symm
  · have hin : (cfg2.win w).isOut = false := (by decide : ∀ w : Fin 6, w ≠ 5 → (cfg2.win w).isOut = false) w hw
    have hne : Pipeline.arrRef spec2 w ∉ ([main_v27] : List (Ref sig .tc)) :=
      (by decide : ∀ w : Fin 6, w ≠ 5 → Pipeline.arrRef spec2 w ∉ ([main_v27] : List (Ref sig .tc))) w hw
    exact ((pdats m 2 c).arrAt_in w hin _).trans ((hA2 m c w).trans (V6_of m (outs m) c _ hne).symm)

theorem hrest2 (c : Dev nD) (b : Ref sig .tc) (hb : b ∉ Finset.univ.image (Pipeline.arrRef spec2)) :
    V6 m (outs m) c (Proc.devRef .tc b) = V5 m (outs m) c (Proc.devRef .tc b) :=
  V6_of m (outs m) c b (fun h => hb (by
    rw [List.mem_singleton] at h; subst h
    exact Finset.mem_image.mpr ⟨5, Finset.mem_univ _, rfl⟩))

set_option backward.isDefEq.respectTransparency.types false in

def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 _ c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V1 m c (Proc.devRef .tc b))
  hentry c := by
    rw [Pipeline.ownSems0_none]
    iintro ⟨⟨Hub, Hp, HO⟩, -, -⟩
    ihave H := (entry0 (pdats m 0 c) rfl (V1 m c) (hA0 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit0 (pdats m 0 c) rfl (V1 m c) (V2 m (outs m) c) (hF0 m c) (hrest0 m c))
      isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 _ c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V3 m (outs m) c (Proc.devRef .tc b))
  hentry c := by
    rw [Pipeline.ownSems0_none]
    iintro ⟨⟨Hub, Hp, HO⟩, -, -⟩
    ihave H := (entry1 (pdats m 1 c) rfl (V3 m (outs m) c) (hA1 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 (pdats m 1 c) rfl (V3 m (outs m) c) (V4 m (outs m) c) (hF1 m c) (hrest1 m c))
      isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 _ c).loose
  hwaits := Pipeline.hwaits_of_owed_zero _ _ _ _ L lv 2 fun _ _ => rfl
  pre c := iprop(StableHlo.held (c : Thread nD τ) (Pipeline.ucRefs τ sig) (V5 m (outs m) c) ∗ E 2 c)
  post c := iprop(StableHlo.held (c : Thread nD τ) (Pipeline.ucRefs τ sig) (V6 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (fun b => V5 m (outs m) c (Proc.devRef .tc b))
  hentry c := by
    rw [Pipeline.ownSems0_none]
    iintro ⟨⟨Hub, Hp, HO⟩, -, -⟩
    ihave H := (entry2 (pdats m 2 c) rfl (V5 m (outs m) c) (hA2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 _ c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 (pdats m 2 c) rfl (V5 m (outs m) c) (V6 m (outs m) c) (hF2 m c) (hrest2 m c))
      isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SA : Shape := ⟨2, ![12288, 12288]⟩
abbrev SX : Shape := ⟨2, ![12288, 64]⟩
abbrev SW : Shape := ⟨2, ![64, 64]⟩
abbrev SB : Shape := ⟨2, ![1, 64]⟩

def hid (x : Vec Ideal SX .f32) (wt : Vec Ideal SW .f32) (b : Vec Ideal SB .f32) (k : Fin 12288) (n : Fin 64) : EReal :=
  max ((∑ d : Fin 64, x (ix2 k d) * wt (ix2 d n)) + b (ix2 (0 : Fin 1) n)) 0

def layer (A : Vec Ideal SA .f32) (x : Vec Ideal SX .f32) (wt : Vec Ideal SW .f32) (b : Vec Ideal SB .f32) : Vec Ideal SX .f32 :=
  fun j => x j + ∑ k : Fin 12288, A (ix2 (⟨(j 0).val, (j 0).isLt⟩ : Fin 12288) k) * hid x wt b k (⟨(j 1).val, (j 1).isLt⟩ : Fin 64)

theorem layer_ix2 (A : Vec Ideal SA .f32) (x : Vec Ideal SX .f32) (wt : Vec Ideal SW .f32) (b : Vec Ideal SB .f32) (r : Fin 12288) (n : Fin 64) :
    layer A x wt b (ix2 r n) = x (ix2 r n) + ∑ k : Fin 12288, A (ix2 r k) * hid x wt b k n := rfl

end Cert.Spec

end
-- ==== Proof.KI.PayIdx.lean ====
import proofs.«138717_j6734508720258_1_alg».proof.Proof.Gen.KernelIdeal.Skeleton
import proofs.«138717_j6734508720258_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

theorem lhs_feat_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl

theorem lhs_feat_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q

theorem rhs_feat_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q

theorem rhs_feat_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem lhs_node_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl

theorem lhs_node_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q

theorem rhs_node_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q

theorem rhs_node_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem matmul_feat_apply (x : FVec Ideal S1024x64 .bf16) (y : FVec Ideal S64x64 .bf16) (r : Fin 1024) (n : Fin 64) :
    matmul dot_S1024x64_S64x64_S1024x64_1_0_0_1_n_n none x y (constant (F := Ideal) S1024x64 .f32 0x00000000#32) (ix2 r n)
      = ∑ d : Fin 64, x (ix2 r d) * y (ix2 d n) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 r n) ((contrEquiv1 dot_S1024x64_S64x64_S1024x64_1_0_0_1_n_n 64 rfl rfl).symm k) = ix2 r k := funext fun a => Fin.ext (by
    match a with
    | ⟨0, _⟩ => exact lhs_feat_0 _ _
    | ⟨1, _⟩ => exact (lhs_feat_1 _ _).trans hk)
  have er : dot_S1024x64_S64x64_S1024x64_1_0_0_1_n_n.rhsIdx (ix2 r n) ((contrEquiv1 dot_S1024x64_S64x64_S1024x64_1_0_0_1_n_n 64 rfl rfl).symm k) = ix2 k n := funext fun a => Fin.ext (by
    match a with
    | ⟨0, _⟩ => exact (rhs_feat_0 _ _).trans hk
    | ⟨1, _⟩ => exact rhs_feat_1 _ _)
  rw [el, er]

theorem matmul_node_apply (a : FVec Ideal S1024x1024 .bf16) (h : FVec Ideal S1024x64 .bf16) (r : Fin 1024) (n : Fin 64) :
    matmul dot_S1024x1024_S1024x64_S1024x64_1_0_0_1_n_n none a h (constant (F := Ideal) S1024x64 .f32 0x00000000#32) (ix2 r n)
      = ∑ kk : Fin 1024, a (ix2 r kk) * h (ix2 kk n) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r n) ((contrEquiv1 dot_S1024x1024_S1024x64_S1024x64_1_0_0_1_n_n 1024 rfl rfl).symm k) = ix2 r k := funext fun a => Fin.ext (by
    match a with
    | ⟨0, _⟩ => exact lhs_node_0 _ _
    | ⟨1, _⟩ => exact (lhs_node_1 _ _).trans hk)
  have er : dot_S1024x1024_S1024x64_S1024x64_1_0_0_1_n_n.rhsIdx (ix2 r n) ((contrEquiv1 dot_S1024x1024_S1024x64_S1024x64_1_0_0_1_n_n 1024 rfl rfl).symm k) = ix2 k n := funext fun a => Fin.ext (by
    match a with
    | ⟨0, _⟩ => exact (rhs_node_0 _ _).trans hk
    | ⟨1, _⟩ => exact rhs_node_1 _ _)
  rw [el, er]

theorem pay1_apply (j : S1024x64.Idx) : k0_pay1 (F := Ideal) j = 0 := by
  unfold k0_pay1
  rw [shapeCast_self, broadcast_apply]
  exact Ideal.ofBits_zero_f32

theorem pay2_apply (v3 : Vec Ideal S1024x64 .f32) (v6 : Vec Ideal S64x64 .f32) (v10 : Vec Ideal S1x64 .f32) (v17 : Vec Ideal S1024x1024 .f32) (v19 : Vec Ideal S1024x64 .f32) (r : Fin 1024) (n : Fin 64) :
    k0_pay2 (F := Ideal) v3 v6 v10 v17 v19 (ix2 r n)
      = v19 (ix2 r n) + ∑ kk : Fin 1024, v17 (ix2 r kk) * max ((∑ d : Fin 64, v3 (ix2 kk d) * v6 (ix2 d n)) + v10 (ix2 (0 : Fin 1) n)) 0 := by
  unfold k0_pay2
  rw [shapeCast_self, addf_apply, matmul_node_apply]
  refine congrArg (v19 (ix2 r n) + ·) (Finset.sum_congr rfl fun kk _ => ?_)
  rw [truncf_apply, truncf_apply, maximumf_apply, addf_apply, matmul_feat_apply, broadcast_apply,
    broadcastTo_1b_ab_apply, shapeCast_self, shapeCast_self, shapeCast_self]
  have h0 : (FloatOps.ofBits .f32 0x00000000#32 : Ideal .f32) = 0 := Ideal.ofBits_zero_f32
  rw [h0]
  refine congrArg (fun s => v17 (ix2 r kk) * max (s + v10 (ix2 (0 : Fin 1) n)) 0) (Finset.sum_congr rfl fun d _ => ?_)
  rw [truncf_apply, truncf_apply]

theorem pay3_apply (v28 v30 : Vec Ideal S1024x64 .f32) (j : S1024x64.Idx) : k0_pay3 (F := Ideal) v28 v30 j = v28 j + v30 j := by
  unfold k0_pay3
  rw [addf_apply, shapeCast_self]

section AnyInstance
variable {F : FTy → Type} [FloatOps F]

theorem k1_pay1_eq : k1_pay1 (F := F) = k0_pay1 := rfl
theorem k1_pay2_eq : @k1_pay2 F _ = @k0_pay2 F _ := rfl
theorem k1_pay3_eq : @k1_pay3 F _ = @k0_pay3 F _ := rfl
theorem k2_pay1_eq : k2_pay1 (F := F) = k0_pay1 := rfl
theorem k2_pay2_eq : @k2_pay2 F _ = @k0_pay2 F _ := rfl
theorem k2_pay3_eq : @k2_pay3 F _ = @k0_pay3 F _ := rfl

end AnyInstance

theorem pay1_apply0 (j : S1024x64.Idx) : k0_pay1 (F := Ideal) j = 0 := pay1_apply j
theorem pay2_apply0 (v3 : Vec Ideal S1024x64 .f32) (v6 : Vec Ideal S64x64 .f32) (v10 : Vec Ideal S1x64 .f32) (v17 : Vec Ideal S1024x1024 .f32) (v19 : Vec Ideal S1024x64 .f32) (r : Fin 1024) (n : Fin 64) :
    k0_pay2 (F := Ideal) v3 v6 v10 v17 v19 (ix2 r n)
      = v19 (ix2 r n) + ∑ kk : Fin 1024, v17 (ix2 r kk) * max ((∑ d : Fin 64, v3 (ix2 kk d) * v6 (ix2 d n)) + v10 (ix2 (0 : Fin 1) n)) 0 :=
  pay2_apply v3 v6 v10 v17 v19 r n
theorem pay3_apply0 (v28 v30 : Vec Ideal S1024x64 .f32) (j : S1024x64.Idx) : k0_pay3 (F := Ideal) v28 v30 j = v28 j + v30 j :=
  pay3_apply v28 v30 j

theorem pay1_apply1 (j : S1024x64.Idx) : k1_pay1 (F := Ideal) j = 0 := by
  rw [k1_pay1_eq]; exact pay1_apply j
theorem pay2_apply1 (v3 : Vec Ideal S1024x64 .f32) (v6 : Vec Ideal S64x64 .f32) (v10 : Vec Ideal S1x64 .f32) (v17 : Vec Ideal S1024x1024 .f32) (v19 : Vec Ideal S1024x64 .f32) (r : Fin 1024) (n : Fin 64) :
    k1_pay2 (F := Ideal) v3 v6 v10 v17 v19 (ix2 r n)
      = v19 (ix2 r n) + ∑ kk : Fin 1024, v17 (ix2 r kk) * max ((∑ d : Fin 64, v3 (ix2 kk d) * v6 (ix2 d n)) + v10 (ix2 (0 : Fin 1) n)) 0 := by
  rw [k1_pay2_eq]; exact pay2_apply v3 v6 v10 v17 v19 r n
theorem pay3_apply1 (v28 v30 : Vec Ideal S1024x64 .f32) (j : S1024x64.Idx) : k1_pay3 (F := Ideal) v28 v30 j = v28 j + v30 j := by
  rw [k1_pay3_eq]; exact pay3_apply v28 v30 j

theorem pay1_apply2 (j : S1024x64.Idx) : k2_pay1 (F := Ideal) j = 0 := by
  rw [k2_pay1_eq]; exact pay1_apply j
theorem pay2_apply2 (v3 : Vec Ideal S1024x64 .f32) (v6 : Vec Ideal S64x64 .f32) (v10 : Vec Ideal S1x64 .f32) (v17 : Vec Ideal S1024x1024 .f32) (v19 : Vec Ideal S1024x64 .f32) (r : Fin 1024) (n : Fin 64) :
    k2_pay2 (F := Ideal) v3 v6 v10 v17 v19 (ix2 r n)
      = v19 (ix2 r n) + ∑ kk : Fin 1024, v17 (ix2 r kk) * max ((∑ d : Fin 64, v3 (ix2 kk d) * v6 (ix2 d n)) + v10 (ix2 (0 : Fin 1) n)) 0 := by
  rw [k2_pay2_eq]; exact pay2_apply v3 v6 v10 v17 v19 r n
theorem pay3_apply2 (v28 v30 : Vec Ideal S1024x64 .f32) (j : S1024x64.Idx) : k2_pay3 (F := Ideal) v28 v30 j = v28 j + v30 j := by
  rw [k2_pay3_eq]; exact pay3_apply v28 v30 j

def tileEquiv : Fin 12 × Fin 1024 ≃ Fin 12288 where
  toFun p := ⟨p.1.val * 1024 + p.2.val, by have := p.1.isLt; have := p.2.isLt; omega⟩
  invFun k := (⟨k.val / 1024, by have := k.isLt; omega⟩, ⟨k.val % 1024, Nat.mod_lt _ (by decide)⟩)
  left_inv p := by
    have h1 := p.1.isLt; have h2 := p.2.isLt
    refine Prod.ext (Fin.ext ?_) (Fin.ext ?_)
    · show (p.1.val * 1024 + p.2.val) / 1024 = p.1.val; omega
    · show (p.1.val * 1024 + p.2.val) % 1024 = p.2.val; omega
  right_inv k := Fin.ext (by show k.val / 1024 * 1024 + k.val % 1024 = k.val; omega)

theorem sum_tiles (f : Fin 12288 → EReal) :
    ∑ k : Fin 12288, f k = ∑ kb : Fin 12, ∑ kk : Fin 1024, f ⟨kb.val * 1024 + kk.val, by omega⟩ := by
  rw [← Equiv.sum_comp tileEquiv f, Fintype.sum_prod_type]
  rfl

def tileTerm (A : Vec Ideal Cert.Spec.SA .f32) (X : Vec Ideal Cert.Spec.SX .f32) (W : Vec Ideal Cert.Spec.SW .f32)
    (B : Vec Ideal Cert.Spec.SB .f32) (q : Fin 12288) (f : Fin 64) (kb : ℕ) : EReal :=
  if h : kb < 12 then
    ∑ kk : Fin 1024, A (ix2 q (⟨kb * 1024 + kk.val, by omega⟩ : Fin 12288)) * Cert.Spec.hid X W B ⟨kb * 1024 + kk.val, by omega⟩ f
  else 0

theorem layer_tiles (A : Vec Ideal Cert.Spec.SA .f32) (X : Vec Ideal Cert.Spec.SX .f32) (W : Vec Ideal Cert.Spec.SW .f32)
    (B : Vec Ideal Cert.Spec.SB .f32) (q : Fin 12288) (f : Fin 64) :
    Cert.Spec.layer A X W B (ix2 q f) = X (ix2 q f) + ∑ kb ∈ Finset.range 12, tileTerm A X W B q f kb := by
  rw [Cert.Spec.layer_ix2, sum_tiles, ← Fin.sum_univ_eq_sum_range (fun kb => tileTerm A X W B q f kb) 12]
  refine congrArg (X (ix2 q f) + ·) (Finset.sum_congr rfl fun kb _ => ?_)
  unfold tileTerm
  rw [dif_pos kb.isLt]

theorem zero_offsets2 : (![0, 0] : Fin 2 → Nat) = fun _ => 0 := funext fun a => by fin_cases a <;> rfl

end Cert.KernelIdeal.Hand
-- ==== Proof.KI.R0.Value.lean ====
import proofs.«138717_j6734508720258_1_alg».proof.Proof.KI.R0.Body
import proofs.«138717_j6734508720258_1_alg».proof.Proof.KI.PayIdx
import proofs.«138717_j6734508720258_1_alg».proof.Proof.Spec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

theorem accA0_eq (c : Dev nD) (i : grid0.Coords) (m : Bufs) (hc0 : cond0_0 i) (hc1 : ¬cond0_1 i) (x : Ins F) (xs : Vec F S1024x64 .f32) :
    accAt0 (kernelRun0_A c i m hc0 hc1 x xs) = k0_pay2 x.xk x.w x.b x.a k0_pay1 := by
  unfold accAt0
  rw [View.read_writes_eq_canon _ _ _ (kernelRun0_A c i m hc0 hc1 x xs).covS]
  unfold kernelRun0_A
  dsimp only
  sl_unfold_words
  rw [View.canon_cons_unit_zero (S := S1024x64) zero_offsets2, View.readCov_unit_zero (S := S1024x64) _ zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accB0_eq (c : Dev nD) (i : grid0.Coords) (m : Bufs) (hc0 : ¬cond0_0 i) (hc1 : ¬cond0_1 i) (x : Ins F) (xs : Vec F S1024x64 .f32) :
    accAt0 (kernelRun0_B c i m hc0 hc1 x xs) = k0_pay2 x.xk x.w x.b x.a xs := by
  unfold accAt0
  rw [View.read_writes_eq_canon _ _ _ (kernelRun0_B c i m hc0 hc1 x xs).covS]
  unfold kernelRun0_B
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accC0_eq (c : Dev nD) (i : grid0.Coords) (m : Bufs) (hc0 : ¬cond0_0 i) (hc1 : cond0_1 i) (x : Ins F) (xs : Vec F S1024x64 .f32) :
    accAt0 (kernelRun0_C c i m hc0 hc1 x xs) = k0_pay2 x.xk x.w x.b x.a xs := by
  unfold accAt0
  rw [View.read_writes_eq_canon _ _ _ (kernelRun0_C c i m hc0 hc1 x xs).covS]
  unfold kernelRun0_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem outC0_eq (c : Dev nD) (i : grid0.Coords) (m : Bufs) (hc0 : ¬cond0_0 i) (hc1 : cond0_1 i) (x : Ins F) (xs : Vec F S1024x64 .f32) :
    outAt0 (kernelRun0_C c i m hc0 hc1 x xs) = k0_pay3 x.xi (k0_pay2 x.xk x.w x.b x.a xs) := by
  unfold outAt0
  rw [View.read_writes_eq_canon _ _ _ ((kernelRun0_C c i m hc0 hc1 x xs).covO hc1)]
  unfold kernelRun0_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

end Pieces

section Steps
variable {F : FTy → Type} [FloatOps F]
variable (V : (c : Dev nD) → (b : Ref sig .tc) → Buf (Elt F) ((c : Thread nD τ).loc b))

abbrev blkA0 (c : Dev nD) (t : Fin cfg0.N) : Vec F S1024x1024 .f32 := iblk0 V c 0 t
abbrev blkXk0 (c : Dev nD) (t : Fin cfg0.N) : Vec F S1024x64 .f32 := iblk0 V c 1 t
abbrev blkXi0 (c : Dev nD) (t : Fin cfg0.N) : Vec F S1024x64 .f32 := iblk0 V c 2 t
abbrev blkW0 (c : Dev nD) (t : Fin cfg0.N) : Vec F S64x64 .f32 := iblk0 V c 3 t
abbrev blkB0 (c : Dev nD) (t : Fin cfg0.N) : Vec F S1x64 .f32 := iblk0 V c 4 t

theorem step0 (c : Dev nD) (t : Fin cfg0.N) :
    outsAt0 V c t.val t.isLt = (outAt0 (runAt0 V c t (prev0 V c t)), accAt0 (runAt0 V c t (prev0 V c t))) :=
  outsAt0_eq V c t _ (fun _ => rfl)

theorem acc0_first (c : Dev nD) (t : Fin cfg0.N) (h0 : t.val % 12 = 0) :
    (outsAt0 V c t.val t.isLt).2 = k0_pay2 (blkXk0 V c t) (blkW0 V c t) (blkB0 V c t) (blkA0 V c t) (k0_pay1 (F := F)) := by
  rw [step0]; dsimp only; unfold runAt0; rw [dif_pos h0]
  exact accA0_eq c _ _ _ _ _ _

theorem acc0_next (c : Dev nD) (t : Fin cfg0.N) (h0 : ¬t.val % 12 = 0) :
    (outsAt0 V c t.val t.isLt).2 = k0_pay2 (blkXk0 V c t) (blkW0 V c t) (blkB0 V c t) (blkA0 V c t) (prev0 V c t) := by
  rw [step0]; dsimp only; unfold runAt0; rw [dif_neg h0]
  by_cases h1 : t.val % 12 = 11
  · rw [dif_pos h1]; exact accC0_eq c _ _ _ _ _ _
  · rw [dif_neg h1]; exact accB0_eq c _ _ _ _ _ _

theorem out0_last (c : Dev nD) (t : Fin cfg0.N) (h1 : t.val % 12 = 11) :
    (outsAt0 V c t.val t.isLt).1 = k0_pay3 (blkXi0 V c t) (outsAt0 V c t.val t.isLt).2 := by
  have h0 : ¬t.val % 12 = 0 := by omega
  rw [step0]; dsimp only; unfold runAt0; rw [dif_neg h0, dif_pos h1, accC0_eq]
  exact outC0_eq c _ _ _ _ _ _

end Steps

section Value
variable (V : (c : Dev nD) → (b : Ref sig .tc) → Buf (Elt Ideal) ((c : Thread nD τ).loc b))

abbrev arrA0 (c : Dev nD) : Vec Ideal Cert.Spec.SA .f32 := V c main_arg2

abbrev arrX0 (c : Dev nD) : Vec Ideal Cert.Spec.SX .f32 := V c main_v6

abbrev arrW0 (c : Dev nD) : Vec Ideal Cert.Spec.SW .f32 := V c main_v11

abbrev arrB0 (c : Dev nD) : Vec Ideal Cert.Spec.SB .f32 := V c main_v12

abbrev rowOf0 (t : Fin cfg0.N) (r : Fin 1024) : Fin 12288 :=
  ⟨t.val / 12 * 1024 + r.val, by have h := t.isLt; have hN : cfg0.N = 144 := N_0; omega⟩

abbrev colOf0 (t : Fin cfg0.N) (kk : Fin 1024) : Fin 12288 :=
  ⟨t.val % 12 * 1024 + kk.val, by omega⟩

theorem idx_facts0 : ∀ t : Fin cfg0.N,
    win0_0.index t (0 : Fin 2) = t.val / 12 ∧ win0_0.index t (1 : Fin 2) = t.val % 12
    ∧ win0_1.index t (0 : Fin 2) = t.val % 12 ∧ win0_1.index t (1 : Fin 2) = 0
    ∧ win0_2.index t (0 : Fin 2) = t.val / 12 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 12 ∧ win0_5.index t (1 : Fin 2) = 0 :=
  (by decide +kernel : ∀ t : Fin grid0.N, _)

theorem blkA0_apply (c : Dev nD) (t : Fin cfg0.N) (r kk : Fin 1024) :
    blkA0 V c t (ix2 r kk) = arrA0 V c (ix2 (rowOf0 t r) (colOf0 t kk)) := by
  obtain ⟨e0, e1, -⟩ := idx_facts0 t
  show V c main_arg2 _ = V c main_arg2 _
  refine congrArg (V c main_arg2) (funext fun a => Fin.ext ?_)
  match a with
  | ⟨0, _⟩ => show win0_0.index t (0 : Fin 2) * 1024 + 1 * r.val = t.val / 12 * 1024 + r.val; rw [e0]; omega
  | ⟨1, _⟩ => show win0_0.index t (1 : Fin 2) * 1024 + 1 * kk.val = t.val % 12 * 1024 + kk.val; rw [e1]; omega

theorem blkXk0_apply (c : Dev nD) (t : Fin cfg0.N) (kk : Fin 1024) (d : Fin 64) :
    blkXk0 V c t (ix2 kk d) = arrX0 V c (ix2 (colOf0 t kk) d) := by
  obtain ⟨-, -, e0, e1, -⟩ := idx_facts0 t
  show V c main_v6 _ = V c main_v6 _
  refine congrArg (V c main_v6) (funext fun a => Fin.ext ?_)
  match a with
  | ⟨0, _⟩ => show win0_1.index t (0 : Fin 2) * 1024 + 1 * kk.val = t.val % 12 * 1024 + kk.val; rw [e0]; omega
  | ⟨1, _⟩ => show win0_1.index t (1 : Fin 2) * 64 + 1 * d.val = d.val; rw [e1]; omega

theorem blkXi0_apply (c : Dev nD) (t : Fin cfg0.N) (r : Fin 1024) (f : Fin 64) :
    blkXi0 V c t (ix2 r f) = arrX0 V c (ix2 (rowOf0 t r) f) := by
  obtain ⟨-, -, -, -, e0, e1, -⟩ := idx_facts0 t
  show V c main_v6 _ = V c main_v6 _
  refine congrArg (V c main_v6) (funext fun a => Fin.ext ?_)
  match a with
  | ⟨0, _⟩ => show win0_2.index t (0 : Fin 2) * 1024 + 1 * r.val = t.val / 12 * 1024 + r.val; rw [e0]; omega
  | ⟨1, _⟩ => show win0_2.index t (1 : Fin 2) * 64 + 1 * f.val = f.val; rw [e1]; omega

theorem blkW0_apply (c : Dev nD) (t : Fin cfg0.N) (d f : Fin 64) :
    blkW0 V c t (ix2 d f) = arrW0 V c (ix2 d f) := by
  obtain ⟨-, -, -, -, -, -, e0, e1, -⟩ := idx_facts0 t
  show V c main_v11 _ = V c main_v11 _
  refine congrArg (V c main_v11) (funext fun a => Fin.ext ?_)
  match a with
  | ⟨0, _⟩ => show win0_3.index t (0 : Fin 2) * 64 + 1 * d.val = d.val; rw [e0]; omega
  | ⟨1, _⟩ => show win0_3.index t (1 : Fin 2) * 64 + 1 * f.val = f.val; rw [e1]; omega

theorem blkB0_apply (c : Dev nD) (t : Fin cfg0.N) (f : Fin 64) :
    blkB0 V c t (ix2 (0 : Fin 1) f) = arrB0 V c (ix2 (0 : Fin 1) f) := by
  obtain ⟨-, -, -, -, -, -, -, -, e0, e1, -⟩ := idx_facts0 t
  show V c main_v12 _ = V c main_v12 _
  refine congrArg (V c main_v12) (funext fun a => Fin.ext ?_)
  match a with
  | ⟨0, _⟩ => show win0_4.index t (0 : Fin 2) * 1 + 1 * (0 : Fin 1).val = (0 : Fin 1).val; rw [e0]; omega
  | ⟨1, _⟩ => show win0_4.index t (1 : Fin 2) * 64 + 1 * f.val = f.val; rw [e1]; omega

theorem tile0_eq (c : Dev nD) (t : Fin cfg0.N) (r : Fin 1024) (f : Fin 64) :
    (∑ kk : Fin 1024, blkA0 V c t (ix2 r kk) * max ((∑ d : Fin 64, blkXk0 V c t (ix2 kk d) * blkW0 V c t (ix2 d f)) + blkB0 V c t (ix2 (0 : Fin 1) f)) 0)
      = tileTerm (arrA0 V c) (arrX0 V c) (arrW0 V c) (arrB0 V c) (rowOf0 t r) f (t.val % 12) := by
  unfold tileTerm
  rw [dif_pos (Nat.mod_lt _ (by decide))]
  refine Finset.sum_congr rfl fun kk _ => ?_
  rw [blkA0_apply, blkB0_apply]
  unfold Cert.Spec.hid
  refine congrArg (fun s => arrA0 V c (ix2 (rowOf0 t r) (colOf0 t kk)) * max (s + arrB0 V c (ix2 (0 : Fin 1) f)) 0) (Finset.sum_congr rfl fun d _ => ?_)
  rw [blkXk0_apply, blkW0_apply]

theorem acc0_eq (c : Dev nD) : ∀ (n : ℕ) (hn : n < cfg0.N) (r : Fin 1024) (f : Fin 64),
    (outsAt0 V c n hn).2 (ix2 r f)
      = ∑ kb ∈ Finset.range (n % 12 + 1), tileTerm (arrA0 V c) (arrX0 V c) (arrW0 V c) (arrB0 V c) (rowOf0 ⟨n, hn⟩ r) f kb := by
  intro n
  induction n using Nat.strong_induction_on with
  | _ n ih =>
    intro hn r f
    by_cases h0 : n % 12 = 0
    · refine (congrFun (acc0_first V c ⟨n, hn⟩ h0) (ix2 r f)).trans ?_
      refine (pay2_apply0 _ _ _ _ _ r f).trans ?_
      rw [pay1_apply0, zero_add, tile0_eq V c ⟨n, hn⟩ r f, Finset.sum_range_succ]
      show _ = _ + tileTerm _ _ _ _ _ f (n % 12)
      rw [h0, Finset.sum_range_zero, zero_add]
    · have hp : n - 1 < n := by omega
      have hn' : n - 1 < cfg0.N := Nat.lt_of_le_of_lt (Nat.sub_le _ _) hn
      refine (congrFun (acc0_next V c ⟨n, hn⟩ h0) (ix2 r f)).trans ?_
      refine (pay2_apply0 _ _ _ _ _ r f).trans ?_
      rw [tile0_eq V c ⟨n, hn⟩ r f, Finset.sum_range_succ]
      refine congrArg (· + tileTerm (arrA0 V c) (arrX0 V c) (arrW0 V c) (arrB0 V c) (rowOf0 ⟨n, hn⟩ r) f (n % 12)) ?_
      have e1 : (n - 1) % 12 + 1 = n % 12 := by omega
      have e2 : rowOf0 ⟨n - 1, hn'⟩ r = rowOf0 ⟨n, hn⟩ r :=
        Fin.ext (by show (n - 1) / 12 * 1024 + r.val = n / 12 * 1024 + r.val; omega)
      refine (ih (n - 1) hp hn' r f).trans ?_
      rw [e1, e2]

theorem out0_eq (c : Dev nD) (t : Fin cfg0.N) (h1 : t.val % 12 = 11) (r : Fin 1024) (f : Fin 64) :
    (outsAt0 V c t.val t.isLt).1 (ix2 r f)
      = Cert.Spec.layer (arrA0 V c) (arrX0 V c) (arrW0 V c) (arrB0 V c) (ix2 (rowOf0 t r) f) := by
  refine (congrFun (out0_last V c t h1) (ix2 r f)).trans ?_
  refine (pay3_apply0 _ _ (ix2 r f)).trans ?_
  rw [blkXi0_apply, acc0_eq V c t.val t.isLt r f, h1, layer_tiles]

theorem flushed0_out (c : Dev nD) (t : Fin cfg0.N) (hf : (cfg0.win 5).flush t = true) :
    (dat0 V c).flushed 5 t
      = ((cfg0.win 5).blk t).view.read (Elt Ideal) (Cert.Spec.layer (arrA0 V c) (arrX0 V c) (arrW0 V c) (arrB0 V c)) := by
  have h1 : t.val % 12 = 11 := (flush0_5 t).mp hf
  obtain ⟨-, -, -, -, -, -, -, -, -, -, e0, e1⟩ := idx_facts0 t
  show (cfg0.win 5).cut (grid0.coords t) ((dat0 V c).after 5 t) = _
  rw [after0_5]
  funext j
  rw [View.read_apply]
  obtain ⟨r, f, rfl⟩ : ∃ (r : Fin 1024) (f : Fin 64), j = ix2 r f := ⟨j 0, j 1, eq_ix2 j⟩
  show (outsAt0 V c t.val t.isLt).1 (ix2 r f) = Cert.Spec.layer (arrA0 V c) (arrX0 V c) (arrW0 V c) (arrB0 V c) (((cfg0.win 5).blk t).view.emb (ix2 r f))
  have hemb : ((cfg0.win 5).blk t).view.emb (ix2 r f) = ix2 (rowOf0 t r) f := funext fun a => Fin.ext (by
    match a with
    | ⟨0, _⟩ => show win0_5.index t (0 : Fin 2) * 1024 + 1 * r.val = t.val / 12 * 1024 + r.val; rw [e0]; omega
    | ⟨1, _⟩ => show win0_5.index t (1 : Fin 2) * 64 + 1 * f.val = f.val; rw [e1]; omega)
  rw [hemb]
  exact out0_eq V c t h1 r f

theorem mem_blk0_out (t : Fin cfg0.N) (i : Cert.Spec.SX.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v13).slice (win0_5.rect t)).set ↔ _
  rw [View.set_slice_whole, Rect.mem_set_unit]
  exact Iff.rfl

theorem cover0_out (i : Cert.Spec.SX.Idx) :
    ∃ t : Fin cfg0.N, (cfg0.win 5).flush t = true ∧ i ∈ ((cfg0.win 5).blk t).view.set := by
  have hN : cfg0.N = 144 := N_0
  have hi0 : (i 0).val < 12288 := (i 0).isLt
  have hi1 : (i 1).val < 64 := (i 1).isLt
  let t : Fin cfg0.N := ⟨12 * ((i 0).val / 1024) + 11, by omega⟩
  have ht : t.val = 12 * ((i 0).val / 1024) + 11 := rfl
  obtain ⟨-, -, -, -, -, -, -, -, -, -, e0, e1⟩ := idx_facts0 t
  refine ⟨t, (flush0_5 t).mpr (by omega), ?_⟩
  rw [mem_blk0_out]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 64 ≤ (i 1).val ∧ (i 1).val < win0_5.index t (1 : Fin 2) * 64 + 64; rw [e1]; omega

theorem arrAt0_out (c : Dev nD) :
    (dat0 V c).arrAt 5 cfg0.N = Cert.Spec.layer (V c main_arg2) (V c main_v6) (V c main_v11) (V c main_v12) :=
  (dat0 V c).arrAt_eq_of_cover 5 (Cert.Spec.layer (arrA0 V c) (arrX0 V c) (arrW0 V c) (arrB0 V c)) (flushed0_out V c) cover0_out

end Value

end Cert.KernelIdeal.Hand

end
-- ==== Proof.KI.R1.Value.lean ====
import proofs.«138717_j6734508720258_1_alg».proof.Proof.KI.R1.Body
import proofs.«138717_j6734508720258_1_alg».proof.Proof.KI.PayIdx
import proofs.«138717_j6734508720258_1_alg».proof.Proof.Spec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

theorem accA1_eq (c : Dev nD) (i : grid1.Coords) (m : Bufs) (hc0 : cond1_0 i) (hc1 : ¬cond1_1 i) (x : Ins F) (xs : Vec F S1024x64 .f32) :
    accAt1 (kernelRun1_A c i m hc0 hc1 x xs) = k1_pay2 x.xk x.w x.b x.a k1_pay1 := by
  unfold accAt1
  rw [View.read_writes_eq_canon _ _ _ (kernelRun1_A c i m hc0 hc1 x xs).covS]
  unfold kernelRun1_A
  dsimp only
  sl_unfold_words
  rw [View.canon_cons_unit_zero (S := S1024x64) zero_offsets2, View.readCov_unit_zero (S := S1024x64) _ zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accB1_eq (c : Dev nD) (i : grid1.Coords) (m : Bufs) (hc0 : ¬cond1_0 i) (hc1 : ¬cond1_1 i) (x : Ins F) (xs : Vec F S1024x64 .f32) :
    accAt1 (kernelRun1_B c i m hc0 hc1 x xs) = k1_pay2 x.xk x.w x.b x.a xs := by
  unfold accAt1
  rw [View.read_writes_eq_canon _ _ _ (kernelRun1_B c i m hc0 hc1 x xs).covS]
  unfold kernelRun1_B
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accC1_eq (c : Dev nD) (i : grid1.Coords) (m : Bufs) (hc0 : ¬cond1_0 i) (hc1 : cond1_1 i) (x : Ins F) (xs : Vec F S1024x64 .f32) :
    accAt1 (kernelRun1_C c i m hc0 hc1 x xs) = k1_pay2 x.xk x.w x.b x.a xs := by
  unfold accAt1
  rw [View.read_writes_eq_canon _ _ _ (kernelRun1_C c i m hc0 hc1 x xs).covS]
  unfold kernelRun1_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem outC1_eq (c : Dev nD) (i : grid1.Coords) (m : Bufs) (hc0 : ¬cond1_0 i) (hc1 : cond1_1 i) (x : Ins F) (xs : Vec F S1024x64 .f32) :
    outAt1 (kernelRun1_C c i m hc0 hc1 x xs) = k1_pay3 x.xi (k1_pay2 x.xk x.w x.b x.a xs) := by
  unfold outAt1
  rw [View.read_writes_eq_canon _ _ _ ((kernelRun1_C c i m hc0 hc1 x xs).covO hc1)]
  unfold kernelRun1_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

end Pieces

section Steps
variable {F : FTy → Type} [FloatOps F]
variable (V : (c : Dev nD) → (b : Ref sig .tc) → Buf (Elt F) ((c : Thread nD τ).loc b))

abbrev blkA1 (c : Dev nD) (t : Fin cfg1.N) : Vec F S1024x1024 .f32 := iblk1 V c 0 t
abbrev blkXk1 (c : Dev nD) (t : Fin cfg1.N) : Vec F S1024x64 .f32 := iblk1 V c 1 t
abbrev blkXi1 (c : Dev nD) (t : Fin cfg1.N) : Vec F S1024x64 .f32 := iblk1 V c 2 t
abbrev blkW1 (c : Dev nD) (t : Fin cfg1.N) : Vec F S64x64 .f32 := iblk1 V c 3 t
abbrev blkB1 (c : Dev nD) (t : Fin cfg1.N) : Vec F S1x64 .f32 := iblk1 V c 4 t

theorem step1 (c : Dev nD) (t : Fin cfg1.N) :
    outsAt1 V c t.val t.isLt = (outAt1 (runAt1 V c t (prev1 V c t)), accAt1 (runAt1 V c t (prev1 V c t))) :=
  outsAt1_eq V c t _ (fun _ => rfl)

theorem acc1_first (c : Dev nD) (t : Fin cfg1.N) (h0 : t.val % 12 = 0) :
    (outsAt1 V c t.val t.isLt).2 = k1_pay2 (blkXk1 V c t) (blkW1 V c t) (blkB1 V c t) (blkA1 V c t) (k1_pay1 (F := F)) := by
  rw [step1]; dsimp only; unfold runAt1; rw [dif_pos h0]
  exact accA1_eq c _ _ _ _ _ _

theorem acc1_next (c : Dev nD) (t : Fin cfg1.N) (h0 : ¬t.val % 12 = 0) :
    (outsAt1 V c t.val t.isLt).2 = k1_pay2 (blkXk1 V c t) (blkW1 V c t) (blkB1 V c t) (blkA1 V c t) (prev1 V c t) := by
  rw [step1]; dsimp only; unfold runAt1; rw [dif_neg h0]
  by_cases h1 : t.val % 12 = 11
  · rw [dif_pos h1]; exact accC1_eq c _ _ _ _ _ _
  · rw [dif_neg h1]; exact accB1_eq c _ _ _ _ _ _

theorem out1_last (c : Dev nD) (t : Fin cfg1.N) (h1 : t.val % 12 = 11) :
    (outsAt1 V c t.val t.isLt).1 = k1_pay3 (blkXi1 V c t) (outsAt1 V c t.val t.isLt).2 := by
  have h0 : ¬t.val % 12 = 0 := by omega
  rw [step1]; dsimp only; unfold runAt1; rw [dif_neg h0, dif_pos h1, accC1_eq]
  exact outC1_eq c _ _ _ _ _ _

end Steps

section Value
variable (V : (c : Dev nD) → (b : Ref sig .tc) → Buf (Elt Ideal) ((c : Thread nD τ).loc b))

abbrev arrA1 (c : Dev nD) : Vec Ideal Cert.Spec.SA .f32 := V c main_arg2

abbrev arrX1 (c : Dev nD) : Vec Ideal Cert.Spec.SX .f32 := V c main_v13

abbrev arrW1 (c : Dev nD) : Vec Ideal Cert.Spec.SW .f32 := V c main_v18

abbrev arrB1 (c : Dev nD) : Vec Ideal Cert.Spec.SB .f32 := V c main_v19

abbrev rowOf1 (t : Fin cfg1.N) (r : Fin 1024) : Fin 12288 :=
  ⟨t.val / 12 * 1024 + r.val, by have h := t.isLt; have hN : cfg1.N = 144 := N_1; omega⟩

abbrev colOf1 (t : Fin cfg1.N) (kk : Fin 1024) : Fin 12288 :=
  ⟨t.val % 12 * 1024 + kk.val, by omega⟩

theorem idx_facts1 : ∀ t : Fin cfg1.N,
    win1_0.index t (0 : Fin 2) = t.val / 12 ∧ win1_0.index t (1 : Fin 2) = t.val % 12
    ∧ win1_1.index t (0 : Fin 2) = t.val % 12 ∧ win1_1.index t (1 : Fin 2) = 0
    ∧ win1_2.index t (0 : Fin 2) = t.val / 12 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 12 ∧ win1_5.index t (1 : Fin 2) = 0 :=
  (by decide +kernel : ∀ t : Fin grid1.N, _)

theorem blkA1_apply (c : Dev nD) (t : Fin cfg1.N) (r kk : Fin 1024) :
    blkA1 V c t (ix2 r kk) = arrA1 V c (ix2 (rowOf1 t r) (colOf1 t kk)) := by
  obtain ⟨e0, e1, -⟩ := idx_facts1 t
  show V c main_arg2 _ = V c main_arg2 _
  refine congrArg (V c main_arg2) (funext fun a => Fin.ext ?_)
  match a with
  | ⟨0, _⟩ => show win1_0.index t (0 : Fin 2) * 1024 + 1 * r.val = t.val / 12 * 1024 + r.val; rw [e0]; omega
  | ⟨1, _⟩ => show win1_0.index t (1 : Fin 2) * 1024 + 1 * kk.val = t.val % 12 * 1024 + kk.val; rw [e1]; omega

theorem blkXk1_apply (c : Dev nD) (t : Fin cfg1.N) (kk : Fin 1024) (d : Fin 64) :
    blkXk1 V c t (ix2 kk d) = arrX1 V c (ix2 (colOf1 t kk) d) := by
  obtain ⟨-, -, e0, e1, -⟩ := idx_facts1 t
  show V c main_v13 _ = V c main_v13 _
  refine congrArg (V c main_v13) (funext fun a => Fin.ext ?_)
  match a with
  | ⟨0, _⟩ => show win1_1.index t (0 : Fin 2) * 1024 + 1 * kk.val = t.val % 12 * 1024 + kk.val; rw [e0]; omega
  | ⟨1, _⟩ => show win1_1.index t (1 : Fin 2) * 64 + 1 * d.val = d.val; rw [e1]; omega

theorem blkXi1_apply (c : Dev nD) (t : Fin cfg1.N) (r : Fin 1024) (f : Fin 64) :
    blkXi1 V c t (ix2 r f) = arrX1 V c (ix2 (rowOf1 t r) f) := by
  obtain ⟨-, -, -, -, e0, e1, -⟩ := idx_facts1 t
  show V c main_v13 _ = V c main_v13 _
  refine congrArg (V c main_v13) (funext fun a => Fin.ext ?_)
  match a with
  | ⟨0, _⟩ => show win1_2.index t (0 : Fin 2) * 1024 + 1 * r.val = t.val / 12 * 1024 + r.val; rw [e0]; omega
  | ⟨1, _⟩ => show win1_2.index t (1 : Fin 2) * 64 + 1 * f.val = f.val; rw [e1]; omega

theorem blkW1_apply (c : Dev nD) (t : Fin cfg1.N) (d f : Fin 64) :
    blkW1 V c t (ix2 d f) = arrW1 V c (ix2 d f) := by
  obtain ⟨-, -, -, -, -, -, e0, e1, -⟩ := idx_facts1 t
  show V c main_v18 _ = V c main_v18 _
  refine congrArg (V c main_v18) (funext fun a => Fin.ext ?_)
  match a with
  | ⟨0, _⟩ => show win1_3.index t (0 : Fin 2) * 64 + 1 * d.val = d.val; rw [e0]; omega
  | ⟨1, _⟩ => show win1_3.index t (1 : Fin 2) * 64 + 1 * f.val = f.val; rw [e1]; omega

theorem blkB1_apply (c : Dev nD) (t : Fin cfg1.N) (f : Fin 64) :
    blkB1 V c t (ix2 (0 : Fin 1) f) = arrB1 V c (ix2 (0 : Fin 1) f) := by
  obtain ⟨-, -, -, -, -, -, -, -, e0, e1, -⟩ := idx_facts1 t
  show V c main_v19 _ = V c main_v19 _
  refine congrArg (V c main_v19) (funext fun a => Fin.ext ?_)
  match a with
  | ⟨0, _⟩ => show win1_4.index t (0 : Fin 2) * 1 + 1 * (0 : Fin 1).val = (0 : Fin 1).val; rw [e0]; omega
  | ⟨1, _⟩ => show win1_4.index t (1 : Fin 2) * 64 + 1 * f.val = f.val; rw [e1]; omega

theorem tile1_eq (c : Dev nD) (t : Fin cfg1.N) (r : Fin 1024) (f : Fin 64) :
    (∑ kk : Fin 1024, blkA1 V c t (ix2 r kk) * max ((∑ d : Fin 64, blkXk1 V c t (ix2 kk d) * blkW1 V c t (ix2 d f)) + blkB1 V c t (ix2 (0 : Fin 1) f)) 0)
      = tileTerm (arrA1 V c) (arrX1 V c) (arrW1 V c) (arrB1 V c) (rowOf1 t r) f (t.val % 12) := by
  unfold tileTerm
  rw [dif_pos (Nat.mod_lt _ (by decide))]
  refine Finset.sum_congr rfl fun kk _ => ?_
  rw [blkA1_apply, blkB1_apply]
  unfold Cert.Spec.hid
  refine congrArg (fun s => arrA1 V c (ix2 (rowOf1 t r) (colOf1 t kk)) * max (s + arrB1 V c (ix2 (0 : Fin 1) f)) 0) (Finset.sum_congr rfl fun d _ => ?_)
  rw [blkXk1_apply, blkW1_apply]

theorem acc1_eq (c : Dev nD) : ∀ (n : ℕ) (hn : n < cfg1.N) (r : Fin 1024) (f : Fin 64),
    (outsAt1 V c n hn).2 (ix2 r f)
      = ∑ kb ∈ Finset.range (n % 12 + 1), tileTerm (arrA1 V c) (arrX1 V c) (arrW1 V c) (arrB1 V c) (rowOf1 ⟨n, hn⟩ r) f kb := by
  intro n
  induction n using Nat.strong_induction_on with
  | _ n ih =>
    intro hn r f
    by_cases h0 : n % 12 = 0
    · refine (congrFun (acc1_first V c ⟨n, hn⟩ h0) (ix2 r f)).trans ?_
      refine (pay2_apply1 _ _ _ _ _ r f).trans ?_
      rw [pay1_apply1, zero_add, tile1_eq V c ⟨n, hn⟩ r f, Finset.sum_range_succ]
      show _ = _ + tileTerm _ _ _ _ _ f (n % 12)
      rw [h0, Finset.sum_range_zero, zero_add]
    · have hp : n - 1 < n := by omega
      have hn' : n - 1 < cfg1.N := Nat.lt_of_le_of_lt (Nat.sub_le _ _) hn
      refine (congrFun (acc1_next V c ⟨n, hn⟩ h0) (ix2 r f)).trans ?_
      refine (pay2_apply1 _ _ _ _ _ r f).trans ?_
      rw [tile1_eq V c ⟨n, hn⟩ r f, Finset.sum_range_succ]
      refine congrArg (· + tileTerm (arrA1 V c) (arrX1 V c) (arrW1 V c) (arrB1 V c) (rowOf1 ⟨n, hn⟩ r) f (n % 12)) ?_
      have e1 : (n - 1) % 12 + 1 = n % 12 := by omega
      have e2 : rowOf1 ⟨n - 1, hn'⟩ r = rowOf1 ⟨n, hn⟩ r :=
        Fin.ext (by show (n - 1) / 12 * 1024 + r.val = n / 12 * 1024 + r.val; omega)
      refine (ih (n - 1) hp hn' r f).trans ?_
      rw [e1, e2]

theorem out1_eq (c : Dev nD) (t : Fin cfg1.N) (h1 : t.val % 12 = 11) (r : Fin 1024) (f : Fin 64) :
    (outsAt1 V c t.val t.isLt).1 (ix2 r f)
      = Cert.Spec.layer (arrA1 V c) (arrX1 V c) (arrW1 V c) (arrB1 V c) (ix2 (rowOf1 t r) f) := by
  refine (congrFun (out1_last V c t h1) (ix2 r f)).trans ?_
  refine (pay3_apply1 _ _ (ix2 r f)).trans ?_
  rw [blkXi1_apply, acc1_eq V c t.val t.isLt r f, h1, layer_tiles]

theorem flushed1_out (c : Dev nD) (t : Fin cfg1.N) (hf : (cfg1.win 5).flush t = true) :
    (dat1 V c).flushed 5 t
      = ((cfg1.win 5).blk t).view.read (Elt Ideal) (Cert.Spec.layer (arrA1 V c) (arrX1 V c) (arrW1 V c) (arrB1 V c)) := by
  have h1 : t.val % 12 = 11 := (flush1_5 t).mp hf
  obtain ⟨-, -, -, -, -, -, -, -, -, -, e0, e1⟩ := idx_facts1 t
  show (cfg1.win 5).cut (grid1.coords t) ((dat1 V c).after 5 t) = _
  rw [after1_5]
  funext j
  rw [View.read_apply]
  obtain ⟨r, f, rfl⟩ : ∃ (r : Fin 1024) (f : Fin 64), j = ix2 r f := ⟨j 0, j 1, eq_ix2 j⟩
  show (outsAt1 V c t.val t.isLt).1 (ix2 r f) = Cert.Spec.layer (arrA1 V c) (arrX1 V c) (arrW1 V c) (arrB1 V c) (((cfg1.win 5).blk t).view.emb (ix2 r f))
  have hemb : ((cfg1.win 5).blk t).view.emb (ix2 r f) = ix2 (rowOf1 t r) f := funext fun a => Fin.ext (by
    match a with
    | ⟨0, _⟩ => show win1_5.index t (0 : Fin 2) * 1024 + 1 * r.val = t.val / 12 * 1024 + r.val; rw [e0]; omega
    | ⟨1, _⟩ => show win1_5.index t (1 : Fin 2) * 64 + 1 * f.val = f.val; rw [e1]; omega)
  rw [hemb]
  exact out1_eq V c t h1 r f

theorem mem_blk1_out (t : Fin cfg1.N) (i : Cert.Spec.SX.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v20).slice (win1_5.rect t)).set ↔ _
  rw [View.set_slice_whole, Rect.mem_set_unit]
  exact Iff.rfl

theorem cover1_out (i : Cert.Spec.SX.Idx) :
    ∃ t : Fin cfg1.N, (cfg1.win 5).flush t = true ∧ i ∈ ((cfg1.win 5).blk t).view.set := by
  have hN : cfg1.N = 144 := N_1
  have hi0 : (i 0).val < 12288 := (i 0).isLt
  have hi1 : (i 1).val < 64 := (i 1).isLt
  let t : Fin cfg1.N := ⟨12 * ((i 0).val / 1024) + 11, by omega⟩
  have ht : t.val = 12 * ((i 0).val / 1024) + 11 := rfl
  obtain ⟨-, -, -, -, -, -, -, -, -, -, e0, e1⟩ := idx_facts1 t
  refine ⟨t, (flush1_5 t).mpr (by omega), ?_⟩
  rw [mem_blk1_out]
  intro a
  match a with
  | ⟨0, _⟩ => show win1_5.index t (0 : Fin 2) * 1024 ≤ (i 0).val ∧ (i 0).val < win1_5.index t (0 : Fin 2) * 1024 + 1024; rw [e0]; omega
  | ⟨1, _⟩ => show win1_5.index t (1 : Fin 2) * 64 ≤ (i 1).val ∧ (i 1).val < win1_5.index t (1 : Fin 2) * 64 + 64; rw [e1]; omega

theorem arrAt1_out (c : Dev nD) :
    (dat1 V c).arrAt 5 cfg1.N = Cert.Spec.layer (V c main_arg2) (V c main_v13) (V c main_v18) (V c main_v19) :=
  (dat1 V c).arrAt_eq_of_cover 5 (Cert.Spec.layer (arrA1 V c) (arrX1 V c) (arrW1 V c) (arrB1 V c)) (flushed1_out V c) cover1_out

end Value

end Cert.KernelIdeal.Hand

end
-- ==== Proof.KI.R2.Value.lean ====
import proofs.«138717_j6734508720258_1_alg».proof.Proof.KI.R2.Body
import proofs.«138717_j6734508720258_1_alg».proof.Proof.KI.PayIdx
import proofs.«138717_j6734508720258_1_alg».proof.Proof.Spec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

theorem accA2_eq (c : Dev nD) (i : grid2.Coords) (m : Bufs) (hc0 : cond2_0 i) (hc1 : ¬cond2_1 i) (x : Ins F) (xs : Vec F S1024x64 .f32) :
    accAt2 (kernelRun2_A c i m hc0 hc1 x xs) = k2_pay2 x.xk x.w x.b x.a k2_pay1 := by
  unfold accAt2
  rw [View.read_writes_eq_canon _ _ _ (kernelRun2_A c i m hc0 hc1 x xs).covS]
  unfold kernelRun2_A
  dsimp only
  sl_unfold_words
  rw [View.canon_cons_unit_zero (S := S1024x64) zero_offsets2, View.readCov_unit_zero (S := S1024x64) _ zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accB2_eq (c : Dev nD) (i : grid2.Coords) (m : Bufs) (hc0 : ¬cond2_0 i) (hc1 : ¬cond2_1 i) (x : Ins F) (xs : Vec F S1024x64 .f32) :
    accAt2 (kernelRun2_B c i m hc0 hc1 x xs) = k2_pay2 x.xk x.w x.b x.a xs := by
  unfold accAt2
  rw [View.read_writes_eq_canon _ _ _ (kernelRun2_B c i m hc0 hc1 x xs).covS]
  unfold kernelRun2_B
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem accC2_eq (c : Dev nD) (i : grid2.Coords) (m : Bufs) (hc0 : ¬cond2_0 i) (hc1 : cond2_1 i) (x : Ins F) (xs : Vec F S1024x64 .f32) :
    accAt2 (kernelRun2_C c i m hc0 hc1 x xs) = k2_pay2 x.xk x.w x.b x.a xs := by
  unfold accAt2
  rw [View.read_writes_eq_canon _ _ _ (kernelRun2_C c i m hc0 hc1 x xs).covS]
  unfold kernelRun2_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

theorem outC2_eq (c : Dev nD) (i : grid2.Coords) (m : Bufs) (hc0 : ¬cond2_0 i) (hc1 : cond2_1 i) (x : Ins F) (xs : Vec F S1024x64 .f32) :
    outAt2 (kernelRun2_C c i m hc0 hc1 x xs) = k2_pay3 x.xi (k2_pay2 x.xk x.w x.b x.a xs) := by
  unfold outAt2
  rw [View.read_writes_eq_canon _ _ _ ((kernelRun2_C c i m hc0 hc1 x xs).covO hc1)]
  unfold kernelRun2_C
  dsimp only
  sl_unfold_words
  rw [View.canon_unit_zero zero_offsets2]
  simp only [View.readAt_eq_ld, Memref.IsWhole.read_unread, View.ld_unit_zero (S := S1024x64) zero_offsets2, View.ld_unit_zero (S := S64x64) zero_offsets2, View.ld_unit_zero (S := S1x64) zero_offsets2, View.ld_unit_zero (S := S1024x1024) zero_offsets2, View.readCov_unit_zero (S := S1024x64) _ zero_offsets2]

end Pieces

section Steps
variable {F : FTy → Type} [FloatOps F]
variable (V : (c : Dev nD) → (b : Ref sig .tc) → Buf (Elt F) ((c : Thread nD τ).loc b))

abbrev blkA2 (c : Dev nD) (t : Fin cfg2.N) : Vec F S1024x1024 .f32 := iblk2 V c 0 t
abbrev blkXk2 (c : Dev nD) (t : Fin cfg2.N) : Vec F S1024x64 .f32 := iblk2 V c 1 t
abbrev blkXi2 (c : Dev nD) (t : Fin cfg2.N) : Vec F S1024x64 .f32 := iblk2 V c 2 t
abbrev blkW2 (c : Dev nD) (t : Fin cfg2.N) : Vec F S64x64 .f32 := iblk2 V c 3 t
abbrev blkB2 (c : Dev nD) (t : Fin cfg2.N) : Vec F S1x64 .f32 := iblk2 V c 4 t

theorem step2 (c : Dev nD) (t : Fin cfg2.N) :
    outsAt2 V c t.val t.isLt = (outAt2 (runAt2 V c t (prev2 V c t)), accAt2 (runAt2 V c t (prev2 V c t))) :=
  outsAt2_eq V c t _ (fun _ => rfl)

theorem acc2_first (c : Dev nD) (t : Fin cfg2.N) (h0 : t.val % 12 = 0) :
    (outsAt2 V c t.val t.isLt).2 = k2_pay2 (blkXk2 V c t) (blkW2 V c t) (blkB2 V c t) (blkA2 V c t) (k2_pay1 (F := F)) := by
  rw [step2]; dsimp only; unfold runAt2; rw [dif_pos h0]
  exact accA2_eq c _ _ _ _ _ _

theorem acc2_next (c : Dev nD) (t : Fin cfg2.N) (h0 : ¬t.val % 12 = 0) :
    (outsAt2 V c t.val t.isLt).2 = k2_pay2 (blkXk2 V c t) (blkW2 V c t) (blkB2 V c t) (blkA2 V c t) (prev2 V c t) := by
  rw [step2]; dsimp only; unfold runAt2; rw [dif_neg h0]
  by_cases h1 : t.val % 12 = 11
  · rw [dif_pos h1]; exact accC2_eq c _ _ _ _ _ _
  · rw [dif_neg h1]; exact accB2_eq c _ _ _ _ _ _

theorem out2_last (c : Dev nD) (t : Fin cfg2.N) (h1 : t.val % 12 = 11) :
    (outsAt2 V c t.val t.isLt).1 = k2_pay3 (blkXi2 V c t) (outsAt2 V c t.val t.isLt).2 := by
  have h0 : ¬t.val % 12 = 0 := by omega
  rw [step2]; dsimp only; unfold runAt2; rw [dif_neg h0, dif_pos h1, accC2_eq]
  exact outC2_eq c _ _ _ _ _ _

end Steps

section Value
variable (V : (c : Dev nD) → (b : Ref sig .tc) → Buf (Elt Ideal) ((c : Thread nD τ).loc b))

abbrev arrA2 (c : Dev nD) : Vec Ideal Cert.Spec.SA .f32 := V c main_arg2

abbrev arrX2 (c : Dev nD) : Vec Ideal Cert.Spec.SX .f32 := V c main_v20

abbrev arrW2 (c : Dev nD) : Vec Ideal Cert.Spec.SW .f32 := V c main_v25

abbrev arrB2 (c : Dev nD) : Vec Ideal Cert.Spec.SB .f32 := V c main_v26

abbrev rowOf2 (t : Fin cfg2.N) (r : Fin 1024) : Fin 12288 :=
  ⟨t.val / 12 * 1024 + r.val, by have h := t.isLt; have hN : cfg2.N = 144 := N_2; omega⟩

abbrev colOf2 (t : Fin cfg2.N) (kk : Fin 1024) : Fin 12288 :=
  ⟨t.val % 12 * 1024 + kk.val, by omega⟩

theorem idx_facts2 : ∀ t : Fin cfg2.N,
    win2_0.index t (0 : Fin 2) = t.val / 12 ∧ win2_0.index t (1 : Fin 2) = t.val % 12
    ∧ win2_1.index t (0 : Fin 2) = t.val % 12 ∧ win2_1.index t (1 : Fin 2) = 0
    ∧ win2_2.index t (0 : Fin 2) = t.val / 12 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 12 ∧ win2_5.index t (1 : Fin 2) = 0 :=
  (by decide +kernel : ∀ t : Fin grid2.N, _)

theorem blkA2_apply (c : Dev nD) (t : Fin cfg2.N) (r kk : Fin 1024) :
    blkA2 V c t (ix2 r kk) = arrA2 V c (ix2 (rowOf2 t r) (colOf2 t kk)) := by
  obtain ⟨e0, e1, -⟩ := idx_facts2 t
  show V c main_arg2 _ = V c main_arg2 _
  refine congrArg (V c main_arg2) (funext fun a => Fin.ext ?_)
  match a with
  | ⟨0, _⟩ => show win2_0.index t (0 : Fin 2) * 1024 + 1 * r.val = t.val / 12 * 1024 + r.val; rw [e0]; omega
  | ⟨1, _⟩ => show win2_0.index t (1 : Fin 2) * 1024 + 1 * kk.val = t.val % 12 * 1024 + kk.val; rw [e1]; omega

theorem blkXk2_apply (c : Dev nD) (t : Fin cfg2.N) (kk : Fin 1024) (d : Fin 64) :
    blkXk2 V c t (ix2 kk d) = arrX2 V c (ix2 (colOf2 t kk) d) := by
  obtain ⟨-, -, e0, e1, -⟩ := idx_facts2 t
  show V c main_v20 _ = V c main_v20 _
  refine congrArg (V c main_v20) (funext fun a => Fin.ext ?_)
  match a with
  | ⟨0, _⟩ => show win2_1.index t (0 : Fin 2) * 1024 + 1 * kk.val = t.val % 12 * 1024 + kk.val; rw [e0]; omega
  | ⟨1, _⟩ => show win2_1.index t (1 : Fin 2) * 64 + 1 * d.val = d.val; rw [e1]; omega

theorem blkXi2_apply (c : Dev nD) (t : Fin cfg2.N) (r : Fin 1024) (f : Fin 64) :
    blkXi2 V c t (ix2 r f) = arrX2 V c (ix2 (rowOf2 t r) f) := by
  obtain ⟨-, -, -, -, e0, e1, -⟩ := idx_facts2 t
  show V c main_v20 _ = V c main_v20 _
  refine congrArg (V c main_v20) (funext fun a => Fin.ext ?_)
  match a with
  | ⟨0, _⟩ => show win2_2.index t (0 : Fin 2) * 1024 + 1 * r.val = t.val / 12 * 1024 + r.val; rw [e0]; omega
  | ⟨1, _⟩ => show win2_2.index t (1 : Fin 2) * 64 + 1 * f.val = f.val; rw [e1]; omega

theorem blkW2_apply (c : Dev nD) (t : Fin cfg2.N) (d f : Fin 64) :
    blkW2 V c t (ix2 d f) = arrW2 V c (ix2 d f) := by
  obtain ⟨-, -, -, -, -, -, e0, e1, -⟩ := idx_facts2 t
  show V c main_v25 _ = V c main_v25 _
  refine congrArg (V c main_v25) (funext fun a => Fin.ext ?_)
  match a with
  | ⟨0, _⟩ => show win2_3.index t (0 : Fin 2) * 64 + 1 * d.val = d.val; rw [e0]; omega
  | ⟨1, _⟩ => show win2_3.index t (1 : Fin 2) * 64 + 1 * f.val = f.val; rw [e1]; omega

theorem blkB2_apply (c : Dev nD) (t : Fin cfg2.N) (f : Fin 64) :
    blkB2 V c t (ix2 (0 : Fin 1) f) = arrB2 V c (ix2 (0 : Fin 1) f) := by
  obtain ⟨-, -, -, -, -, -, -, -, e0, e1, -⟩ := idx_facts2 t
  show V c main_v26 _ = V c main_v26 _
  refine congrArg (V c main_v26) (funext fun a => Fin.ext ?_)
  match a with
  | ⟨0, _⟩ => show win2_4.index t (0 : Fin 2) * 1 + 1 * (0 : Fin 1).val = (0 : Fin 1).val; rw [e0]; omega
  | ⟨1, _⟩ => show win2_4.index t (1 : Fin 2) * 64 + 1 * f.val = f.val; rw [e1]; omega

theorem tile2_eq (c : Dev nD) (t : Fin cfg2.N) (r : Fin 1024) (f : Fin 64) :
    (∑ kk : Fin 1024, blkA2 V c t (ix2 r kk) * max ((∑ d : Fin 64, blkXk2 V c t (ix2 kk d) * blkW2 V c t (ix2 d f)) + blkB2 V c t (ix2 (0 : Fin 1) f)) 0)
      = tileTerm (arrA2 V c) (arrX2 V c) (arrW2 V c) (arrB2 V c) (rowOf2 t r) f (t.val % 12) := by
  unfold tileTerm
  rw [dif_pos (Nat.mod_lt _ (by decide))]
  refine Finset.sum_congr rfl fun kk _ => ?_
  rw [blkA2_apply, blkB2_apply]
  unfold Cert.Spec.hid
  refine congrArg (fun s => arrA2 V c (ix2 (rowOf2 t r) (colOf2 t kk)) * max (s + arrB2 V c (ix2 (0 : Fin 1) f)) 0) (Finset.sum_congr rfl fun d _ => ?_)
  rw [blkXk2_apply, blkW2_apply]

theorem acc2_eq (c : Dev nD) : ∀ (n : ℕ) (hn : n < cfg2.N) (r : Fin 1024) (f : Fin 64),
    (outsAt2 V c n hn).2 (ix2 r f)
      = ∑ kb ∈ Finset.range (n % 12 + 1), tileTerm (arrA2 V c) (arrX2 V c) (arrW2 V c) (arrB2 V c) (rowOf2 ⟨n, hn⟩ r) f kb := by
  intro n
  induction n using Nat.strong_induction_on with
  | _ n ih =>
    intro hn r f
    by_cases h0 : n % 12 = 0
    · refine (congrFun (acc2_first V c ⟨n, hn⟩ h0) (ix2 r f)).trans ?_
      refine (pay2_apply2 _ _ _ _ _ r f).trans ?_
      rw [pay1_apply2, zero_add, tile2_eq V c ⟨n, hn⟩ r f, Finset.sum_range_succ]
      show _ = _ + tileTerm _ _ _ _ _ f (n % 12)
      rw [h0, Finset.sum_range_zero, zero_add]
    · have hp : n - 1 < n := by omega
      have hn' : n - 1 < cfg2.N := Nat.lt_of_le_of_lt (Nat.sub_le _ _) hn
      refine (congrFun (acc2_next V c ⟨n, hn⟩ h0) (ix2 r f)).trans ?_
      refine (pay2_apply2 _ _ _ _ _ r f).trans ?_
      rw [tile2_eq V c ⟨n, hn⟩ r f, Finset.sum_range_succ]
      refine congrArg (· + tileTerm (arrA2 V c) (arrX2 V c) (arrW2 V c) (arrB2 V c) (rowOf2 ⟨n, hn⟩ r) f (n % 12)) ?_
      have e1 : (n - 1) % 12 + 1 = n % 12 := by omega
      have e2 : rowOf2 ⟨n - 1, hn'⟩ r = rowOf2 ⟨n, hn⟩ r :=
        Fin.ext (by show (n - 1) / 12 * 1024 + r.val = n / 12 * 1024 + r.val; omega)
      refine (ih (n - 1) hp hn' r f).trans ?_
      rw [e1, e2]

theorem out2_eq (c : Dev nD) (t : Fin cfg2.N) (h1 : t.val % 12 = 11) (r : Fin 1024) (f : Fin 64) :
    (outsAt2 V c t.val t.isLt).1 (ix2 r f)
      = Cert.Spec.layer (arrA2 V c) (arrX2 V c) (arrW2 V c) (arrB2 V c) (ix2 (rowOf2 t r) f) := by
  refine (congrFun (out2_last V c t h1) (ix2 r f)).trans ?_
  refine (pay3_apply2 _ _ (ix2 r f)).trans ?_
  rw [blkXi2_apply, acc2_eq V c t.val t.isLt r f, h1, layer_tiles]

theorem flushed2_out (c : Dev nD) (t : Fin cfg2.N) (hf : (cfg2.win 5).flush t = true) :
    (dat2 V c).flushed 5 t
      = ((cfg2.win 5).blk t).view.read (Elt Ideal) (Cert.Spec.layer (arrA2 V c) (arrX2 V c) (arrW2 V c) (arrB2 V c)) := by
  have h1 : t.val % 12 = 11 := (flush2_5 t).mp hf
  obtain ⟨-, -, -, -, -, -, -, -, -, -, e0, e1⟩ := idx_facts2 t
  show (cfg2.win 5).cut (grid2.coords t) ((dat2 V c).after 5 t) = _
  rw [after2_5]
  funext j
  rw [View.read_apply]
  obtain ⟨r, f, rfl⟩ : ∃ (r : Fin 1024) (f : Fin 64), j = ix2 r f := ⟨j 0, j 1, eq_ix2 j⟩
  show (outsAt2 V c t.val t.isLt).1 (ix2 r f) = Cert.Spec.layer (arrA2 V c) (arrX2 V c) (arrW2 V c) (arrB2 V c) (((cfg2.win 5).blk t).view.emb (ix2 r f))
  have hemb : ((cfg2.win 5).blk t).view.emb (ix2 r f) = ix2 (rowOf2 t r) f := funext fun a => Fin.ext (by
    match a with
    | ⟨0, _⟩ => show win2_5.index t (0 : Fin 2) * 1024 + 1 * r.val = t.val / 12 * 1024 + r.val; rw [e0]; omega
    | ⟨1, _⟩ => show win2_5.index t (1 : Fin 2) * 64 + 1 * f.val = f.val; rw [e1]; omega)
  rw [hemb]
  exact out2_eq V c t h1 r f

theorem mem_blk2_out (t : Fin cfg2.N) (i : Cert.Spec.SX.Idx) :
    i ∈ ((cfg2.win 5).blk t).view.set ↔ ∀ a : Fin 2, win2_5.index t a * S1024x64.size a ≤ (i a).val ∧ (i a).val < win2_5.index t a * S1024x64.size a + S1024x64.size a := by
  show i ∈ ((View.whole main_v27).slice (win2_5.rect t)).set ↔ _
  rw [View.set_slice_whole, Rect.mem_set_unit]
  exact Iff.rfl

theorem cover2_out (i : Cert.Spec.SX.Idx) :
    ∃ t : Fin cfg2.N, (cfg2.win 5).flush t = true ∧ i ∈ ((cfg2.win 5).blk t).view.set := by
  have hN : cfg2.N = 144 := N_2
  have hi0 : (i 0).val < 12288 := (i 0).isLt
  have hi1 : (i 1).val < 64 := (i 1).isLt
  let t : Fin cfg2.N := ⟨12 * ((i 0).val / 1024) + 11, by omega⟩
  have ht : t.val = 12 * ((i 0).val / 1024) + 11 := rfl
  obtain ⟨-, -, -, -, -, -, -, -, -, -, e0, e1⟩ := idx_facts2 t
  refine ⟨t, (flush2_5 t).mpr (by omega), ?_⟩
  rw [mem_blk2_out]
  intro a
  match a with
  | ⟨0, _⟩ => show win2_5.index t (0 : Fin 2) * 1024 ≤ (i 0).val ∧ (i 0).val < win2_5.index t (0 : Fin 2) * 1024 + 1024; rw [e0]; omega
  | ⟨1, _⟩ => show win2_5.index t (1 : Fin 2) * 64 ≤ (i 1).val ∧ (i 1).val < win2_5.index t (1 : Fin 2) * 64 + 64; rw [e1]; omega

theorem arrAt2_out (c : Dev nD) :
    (dat2 V c).arrAt 5 cfg2.N = Cert.Spec.layer (V c main_arg2) (V c main_v20) (V c main_v25) (V c main_v26) :=
  (dat2 V c).arrAt_eq_of_cover 5 (Cert.Spec.layer (arrA2 V c) (arrX2 V c) (arrW2 V c) (arrB2 V c)) (flushed2_out V c) cover2_out

end Value

end Cert.KernelIdeal.Hand

end
-- ==== Proof.Ref.Run.lean ====
import proofs.«138717_j6734508720258_1_alg».proof.Proof.Gen.ReferenceIdeal.Run
import proofs.«138717_j6734508720258_1_alg».proof.Proof.Gen.ReferenceIdeal.Read
import proofs.«138717_j6734508720258_1_alg».proof.Proof.Gen.Pre_finite_inputs
import proofs.«138717_j6734508720258_1_alg».proof.Defs

noncomputable section

namespace Cert.Proof.RefClaims

open Idealize.ShloMosaic Idealize.ShloMosaic.TcCoe Idealize.SL.Sem

theorem frame_ri [hReferenceIdeal : Cert.ReferenceIdeal.Facts] [hPre : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Ref.Shape.lean ====
import proofs.«138717_j6734508720258_1_alg».proof.Proof.Gen.ReferenceIdeal.Run
import proofs.«138717_j6734508720258_1_alg».proof.Proof.Gen.ReferenceIdeal.Read
import proofs.«138717_j6734508720258_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

def head (a0 : Vec Ideal S12288 .i32) (a3 : Vec Ideal S4096x64 .f32) : Vec Ideal S12288x64 .f32 :=
  Host.gather gather_S4096x64_S12288x1_S12288x64_1_0_n_n_0_1_164 a3 (broadcastInDim S12288x1 ![0] bcast_S12288_S12288x1_0 (select (cmpi .slt a0 (broadcastInDim S12288 ![] bcast_S_S12288 (constantI S_ 32 0#32))) (addi a0 (broadcastInDim S12288 ![] bcast_S_S12288 (constantI S_ 32 4096#32))) a0))

def wtOf0 (a4 : Vec Ideal S3x64x64 .f32) : Vec Ideal S64x64 .f32 :=
  transpose S64x64 [1, 0] (shapeCast _ (extractStridedSlice S1x64x64 ![0, 0, 0] a4 slices_S3x64x64_S1x64x64_0_0_0) shapeCasts_S1x64x64_S64x64) transposes_S64x64_S64x64_1_0

def wtOf1 (a4 : Vec Ideal S3x64x64 .f32) : Vec Ideal S64x64 .f32 :=
  transpose S64x64 [1, 0] (shapeCast _ (extractStridedSlice S1x64x64 ![1, 0, 0] a4 slices_S3x64x64_S1x64x64_1_0_0) shapeCasts_S1x64x64_S64x64) transposes_S64x64_S64x64_1_0

def wtOf2 (a4 : Vec Ideal S3x64x64 .f32) : Vec Ideal S64x64 .f32 :=
  transpose S64x64 [1, 0] (shapeCast _ (extractStridedSlice S1x64x64 ![2, 0, 0] a4 slices_S3x64x64_S1x64x64_2_0_0) shapeCasts_S1x64x64_S64x64) transposes_S64x64_S64x64_1_0

def b64Of0 (a5 : Vec Ideal S3x64 .f32) : Vec Ideal S64 .f32 :=
  shapeCast _ (extractStridedSlice S1x64 ![0, 0] a5 slices_S3x64_S1x64_0_0) shapeCasts_S1x64_S64

def b64Of1 (a5 : Vec Ideal S3x64 .f32) : Vec Ideal S64 .f32 :=
  shapeCast _ (extractStridedSlice S1x64 ![1, 0] a5 slices_S3x64_S1x64_1_0) shapeCasts_S1x64_S64

def b64Of2 (a5 : Vec Ideal S3x64 .f32) : Vec Ideal S64 .f32 :=
  shapeCast _ (extractStridedSlice S1x64 ![2, 0] a5 slices_S3x64_S1x64_2_0) shapeCasts_S1x64_S64

def refLayer (A : Vec Ideal S12288x12288 .f32) (x : Vec Ideal S12288x64 .f32) (wt : Vec Ideal S64x64 .f32) (b64 : Vec Ideal S64 .f32) : Vec Ideal S12288x64 .f32 :=
  addf x (Host.dotGeneral (F := Ideal) (φ₁ := .f32) (φ₂ := .f32) dot_S12288x12288_S12288x64_S12288x64_1_0_0_1_n_n none A (maximumf (addf (Host.dotGeneral (F := Ideal) (φ₁ := .f32) (φ₂ := .f32) dot_S12288x64_S64x64_S12288x64_1_0_0_1_n_n none x wt) (broadcastInDim S12288x64 ![0, 1] bcast_S1x64_S12288x64_0_1 (broadcastInDim S1x64 ![1] bcast_S64_S1x64_1 b64))) (broadcastInDim S12288x64 ![] bcast_S_S12288x64 (constant (F := Ideal) S_ .f32 0x00000000#32))))

def tail (a1 : Vec Ideal S12288 .i32) (a6 : Vec Ideal S2x64x64 .f32) (a7 : Vec Ideal S2x64 .f32) (a8 : Vec Ideal S2x64 .f32) (a9 : Vec Ideal S2 .f32)
    (x : Vec Ideal S12288x64 .f32) : Vec Ideal S512x2 .f32 :=
  addf (Host.dotGeneral (F := Ideal) (φ₁ := .f32) (φ₂ := .f32) dot_S512x64_S64x2_S512x2_1_0_0_1_n_n none (maximumf (addf (Host.dotGeneral (F := Ideal) (φ₁ := .f32) (φ₂ := .f32) dot_S512x64_S64x64_S512x64_1_0_0_1_n_n none (maximumf (addf (Host.dotGeneral (F := Ideal) (φ₁ := .f32) (φ₂ := .f32) dot_S512x64_S64x64_S512x64_1_0_0_1_n_n none (Host.scatterAdd scatter_S512x64_S12288x1_S12288x64_1_0_0_1 (broadcastInDim S512x64 ![] bcast_S_S512x64 (constant (F := Ideal) S_ .f32 0x00000000#32)) (broadcastInDim S12288x1 ![0] bcast_S12288_S12288x1_0 a1) x) (transpose S64x64 [1, 0] (shapeCast _ (extractStridedSlice S1x64x64 ![0, 0, 0] a6 slices_S2x64x64_S1x64x64_0_0_0) shapeCasts_S1x64x64_S64x64) transposes_S64x64_S64x64_1_0)) (broadcastInDim S512x64 ![0, 1] bcast_S1x64_S512x64_0_1 (broadcastInDim S1x64 ![1] bcast_S64_S1x64_1 (shapeCast _ (extractStridedSlice S1x64 ![0, 0] a7 slices_S2x64_S1x64_0_0) shapeCasts_S1x64_S64)))) (broadcastInDim S512x64 ![] bcast_S_S512x64 (constant (F := Ideal) S_ .f32 0x00000000#32))) (transpose S64x64 [1, 0] (shapeCast _ (extractStridedSlice S1x64x64 ![1, 0, 0] a6 slices_S2x64x64_S1x64x64_1_0_0) shapeCasts_S1x64x64_S64x64) transposes_S64x64_S64x64_1_0)) (broadcastInDim S512x64 ![0, 1] bcast_S1x64_S512x64_0_1 (broadcastInDim S1x64 ![1] bcast_S64_S1x64_1 (shapeCast _ (extractStridedSlice S1x64 ![1, 0] a7 slices_S2x64_S1x64_1_0) shapeCasts_S1x64_S64)))) (broadcastInDim S512x64 ![] bcast_S_S512x64 (constant (F := Ideal) S_ .f32 0x00000000#32))) (transpose S64x2 [1, 0] a8 transposes_S2x64_S64x2_1_0)) (broadcastInDim S512x2 ![0, 1] bcast_S1x2_S512x2_0_1 (broadcastInDim S1x2 ![1] bcast_S2_S1x2_1 a9))

theorem res_eq (m : (ℓ : Loc nD τ sig) → Buf (Elt Ideal) ℓ) (c : Dev nD) :
    Cert.ReferenceIdeal.Value.res_main_v70 (F := Ideal) m c
      = tail (m ((c.tc : Thread nD τ).loc main_arg1)) (m ((c.tc : Thread nD τ).loc main_arg6)) (m ((c.tc : Thread nD τ).loc main_arg7))
          (m ((c.tc : Thread nD τ).loc main_arg8)) (m ((c.tc : Thread nD τ).loc main_arg9))
          (refLayer (m ((c.tc : Thread nD τ).loc main_arg2))
            (refLayer (m ((c.tc : Thread nD τ).loc main_arg2))
              (refLayer (m ((c.tc : Thread nD τ).loc main_arg2))
                (head (m ((c.tc : Thread nD τ).loc main_arg0)) (m ((c.tc : Thread nD τ).loc main_arg3)))
                (wtOf0 (m ((c.tc : Thread nD τ).loc main_arg4))) (b64Of0 (m ((c.tc : Thread nD τ).loc main_arg5))))
              (wtOf1 (m ((c.tc : Thread nD τ).loc main_arg4))) (b64Of1 (m ((c.tc : Thread nD τ).loc main_arg5))))
            (wtOf2 (m ((c.tc : Thread nD τ).loc main_arg4))) (b64Of2 (m ((c.tc : Thread nD τ).loc main_arg5)))) := by
  unfold Cert.ReferenceIdeal.Value.res_main_v70 tail refLayer head wtOf0 wtOf1 wtOf2 b64Of0 b64Of1 b64Of2
  rfl

theorem dotFeat_ix2 (x : Vec Ideal S12288x64 .f32) (wt : Vec Ideal S64x64 .f32) (r : Fin 12288) (n : Fin 64) :
    Host.dotGeneral (F := Ideal) (φ₁ := .f32) (φ₂ := .f32) dot_S12288x64_S64x64_S12288x64_1_0_0_1_n_n none x wt (ix2 r n)
      = ∑ d : Fin 64, x (ix2 r d) * wt (ix2 d n) := by
  simp only [Host.dotGeneral]
  rw [Ideal.dotGeneral_apply, ← Equiv.sum_comp (ValueIdx.contrEquiv1 dot_S12288x64_S64x64_S12288x64_1_0_0_1_n_n 64 rfl rfl).symm]
  refine Finset.sum_congr rfl fun d _ => ?_
  have hd := ValueIdx.contrEquiv1_symm_val dot_S12288x64_S64x64_S12288x64_1_0_0_1_n_n 64 rfl rfl d
  have el : dot_S12288x64_S64x64_S12288x64_1_0_0_1_n_n.lhsIdx (ix2 r n) ((ValueIdx.contrEquiv1 dot_S12288x64_S64x64_S12288x64_1_0_0_1_n_n 64 rfl rfl).symm d) = ix2 r d := funext fun a => Fin.ext (by
    match a with
    | ⟨0, _⟩ => exact Read.lhs_main_v10_0 _ _
    | ⟨1, _⟩ => exact (Read.lhs_main_v10_1 _ _).trans hd)
  have er : dot_S12288x64_S64x64_S12288x64_1_0_0_1_n_n.rhsIdx (ix2 r n) ((ValueIdx.contrEquiv1 dot_S12288x64_S64x64_S12288x64_1_0_0_1_n_n 64 rfl rfl).symm d) = ix2 d n := funext fun a => Fin.ext (by
    match a with
    | ⟨0, _⟩ => exact (Read.rhs_main_v10_0 _ _).trans hd
    | ⟨1, _⟩ => exact Read.rhs_main_v10_1 _ _)
  rw [el, er]

theorem dotAdj_ix2 (A : Vec Ideal S12288x12288 .f32) (h : Vec Ideal S12288x64 .f32) (r : Fin 12288) (n : Fin 64) :
    Host.dotGeneral (F := Ideal) (φ₁ := .f32) (φ₂ := .f32) dot_S12288x12288_S12288x64_S12288x64_1_0_0_1_n_n none A h (ix2 r n)
      = ∑ k : Fin 12288, A (ix2 r k) * h (ix2 k n) := by
  simp only [Host.dotGeneral]
  rw [Ideal.dotGeneral_apply, ← Equiv.sum_comp (ValueIdx.contrEquiv1 dot_S12288x12288_S12288x64_S12288x64_1_0_0_1_n_n 12288 rfl rfl).symm]
  refine Finset.sum_congr rfl fun k _ => ?_
  have hk := ValueIdx.contrEquiv1_symm_val dot_S12288x12288_S12288x64_S12288x64_1_0_0_1_n_n 12288 rfl rfl k
  have el : dot_S12288x12288_S12288x64_S12288x64_1_0_0_1_n_n.lhsIdx (ix2 r n) ((ValueIdx.contrEquiv1 dot_S12288x12288_S12288x64_S12288x64_1_0_0_1_n_n 12288 rfl rfl).symm k) = ix2 r k := funext fun a => Fin.ext (by
    match a with
    | ⟨0, _⟩ => exact Read.lhs_main_v17_0 _ _
    | ⟨1, _⟩ => exact (Read.lhs_main_v17_1 _ _).trans hk)
  have er : dot_S12288x12288_S12288x64_S12288x64_1_0_0_1_n_n.rhsIdx (ix2 r n) ((ValueIdx.contrEquiv1 dot_S12288x12288_S12288x64_S12288x64_1_0_0_1_n_n 12288 rfl rfl).symm k) = ix2 k n := funext fun a => Fin.ext (by
    match a with
    | ⟨0, _⟩ => exact (Read.rhs_main_v17_0 _ _).trans hk
    | ⟨1, _⟩ => exact Read.rhs_main_v17_1 _ _)
  rw [el, er]

theorem biasRows_ix2 (b64 : Vec Ideal S64 .f32) (r : Fin 12288) (n : Fin 64) :
    broadcastInDim S12288x64 ![0, 1] bcast_S1x64_S12288x64_0_1 (broadcastInDim S1x64 ![1] bcast_S64_S1x64_1 b64) (ix2 r n) = b64 (ix1 n) :=
  (broadcastInDim_apply _ bcast_S1x64_S12288x64_0_1 (broadcastInDim S1x64 ![1] bcast_S64_S1x64_1 b64) (ix2 r n) (ix2 (0 : Fin 1) n) (fun a => match a with
    | ⟨0, _⟩ => by show 0 = if (1 : Nat) = 1 then 0 else r.val; rw [if_pos rfl]
    | ⟨1, _⟩ => by show n.val = if (64 : Nat) = 1 then 0 else n.val; rw [if_neg (by decide)])).trans
  (broadcastInDim_apply _ bcast_S64_S1x64_1 b64 (ix2 (0 : Fin 1) n) (ix1 n) (fun a => match a with
    | ⟨0, _⟩ => by show n.val = if (64 : Nat) = 1 then 0 else n.val; rw [if_neg (by decide)]))

theorem zeros_ix2 (r : Fin 12288) (n : Fin 64) :
    broadcastInDim S12288x64 ![] bcast_S_S12288x64 (constant (F := Ideal) S_ .f32 0x00000000#32) (ix2 r n) = (0 : EReal) :=
  (broadcastInDim_apply _ bcast_S_S12288x64 (constant (F := Ideal) S_ .f32 0x00000000#32) (ix2 r n) ix0 (fun a => a.elim0)).trans
    Ideal.ofBits_zero_f32

theorem refLayer_eq (A : Vec Ideal S12288x12288 .f32) (x : Vec Ideal S12288x64 .f32) (wt : Vec Ideal S64x64 .f32) (b64 : Vec Ideal S64 .f32)
    (b1 : Vec Ideal Cert.Spec.SB .f32) (hb : ∀ n : Fin 64, b1 (ix2 (0 : Fin 1) n) = b64 (ix1 n)) :
    refLayer A x wt b64 = Cert.Spec.layer A x wt b1 := by
  funext j
  obtain ⟨r, n, rfl⟩ : ∃ (r : Fin 12288) (n : Fin 64), j = ix2 r n := ⟨j 0, j 1, eq_ix2 j⟩
  rw [Cert.Spec.layer_ix2]
  unfold refLayer
  rw [addf_apply, dotAdj_ix2]
  congr 1
  refine Finset.sum_congr rfl fun k _ => ?_
  rw [maximumf_apply, addf_apply, dotFeat_ix2, biasRows_ix2, zeros_ix2]
  unfold Cert.Spec.hid
  rw [hb]

end Cert.ReferenceIdeal.Hand

end
-- ==== Proof.Bridge.lean ====
import proofs.«138717_j6734508720258_1_alg».proof.Proof.Gen.KernelIdeal.Regions
import proofs.«138717_j6734508720258_1_alg».proof.Proof.Ref.Shape
import proofs.«138717_j6734508720258_1_alg».proof.Proof.Spec
import Idealize.ShloMosaic.Lib.StableHlo.Run
import Idealize.ShloMosaic.Lib.ValueLayout
import Idealize.ShloMosaic.Lib.ValueIdx
import proofs.«138717_j6734508720258_1_alg».proof.Proof.KI.Launch

noncomputable section

namespace Cert.Proof.Bridge

open Idealize.ShloMosaic Idealize.ShloMosaic.TcCoe Idealize.SL.Sem Idealize.ShloMosaic.StableHlo
open Idealize.ShloMosaic.ValueIdx

def biasRow (b64 : Vec Ideal Cert.ReferenceIdeal.S64 .f32) : Vec Ideal Cert.Spec.SB .f32 :=
  shapeCast Cert.Spec.SB b64 Cert.KernelIdeal.Gen.shapeCasts_S64_S1x64

theorem biasRow_apply (b64 : Vec Ideal Cert.ReferenceIdeal.S64 .f32) (n : Fin 64) :
    biasRow b64 (ix2 (0 : Fin 1) n) = b64 (ix1 n) :=
  shapeCast_a_1a_apply b64 Cert.KernelIdeal.Gen.shapeCasts_S64_S1x64 (0 : Fin 1) n

theorem refLayer_row (A : Vec Ideal Cert.ReferenceIdeal.S12288x12288 .f32) (x : Vec Ideal Cert.ReferenceIdeal.S12288x64 .f32)
    (wt : Vec Ideal Cert.ReferenceIdeal.S64x64 .f32) (b64 : Vec Ideal Cert.ReferenceIdeal.S64 .f32) :
    Cert.ReferenceIdeal.Hand.refLayer A x wt b64 = Cert.Spec.layer A x wt (biasRow b64) :=
  Cert.ReferenceIdeal.Hand.refLayer_eq A x wt b64 (biasRow b64) (biasRow_apply b64)

section Stretches

open Cert.KernelIdeal Cert.KernelIdeal.Gen

variable (W : Valuation τ sig (Elt Ideal))

theorem stretch0_v6 : StableHlo.after (hostOps0 (F := Ideal)) W (Proc.devRef .tc main_v6)
    = Cert.ReferenceIdeal.Hand.head (W (Proc.devRef .tc main_arg0)) (W (Proc.devRef .tc main_arg3)) := by
  after_results
  rfl

theorem stretch0_v11 : StableHlo.after (hostOps0 (F := Ideal)) W (Proc.devRef .tc main_v11)
    = Cert.ReferenceIdeal.Hand.wtOf0 (W (Proc.devRef .tc main_arg4)) := by
  after_results
  rfl

theorem stretch0_v12 : StableHlo.after (hostOps0 (F := Ideal)) W (Proc.devRef .tc main_v12)
    = biasRow (Cert.ReferenceIdeal.Hand.b64Of0 (W (Proc.devRef .tc main_arg5))) := by
  after_results
  rfl

theorem stretch1_v18 : StableHlo.after (hostOps1 (F := Ideal)) W (Proc.devRef .tc main_v18)
    = Cert.ReferenceIdeal.Hand.wtOf1 (W (Proc.devRef .tc main_arg4)) := by
  after_results
  rfl

theorem stretch1_v19 : StableHlo.after (hostOps1 (F := Ideal)) W (Proc.devRef .tc main_v19)
    = biasRow (Cert.ReferenceIdeal.Hand.b64Of1 (W (Proc.devRef .tc main_arg5))) := by
  after_results
  rfl

theorem stretch2_v25 : StableHlo.after (hostOps2 (F := Ideal)) W (Proc.devRef .tc main_v25)
    = Cert.ReferenceIdeal.Hand.wtOf2 (W (Proc.devRef .tc main_arg4)) := by
  after_results
  rfl

theorem stretch2_v26 : StableHlo.after (hostOps2 (F := Ideal)) W (Proc.devRef .tc main_v26)
    = biasRow (Cert.ReferenceIdeal.Hand.b64Of2 (W (Proc.devRef .tc main_arg5))) := by
  after_results
  rfl

end Stretches

section Tail

open Cert.KernelIdeal Cert.KernelIdeal.Gen

set_option maxHeartbeats 4000000 in

theorem tail_read (W : Valuation τ sig (Elt Ideal)) :
    StableHlo.after (hostOps3_4 (F := Ideal)) (StableHlo.after (hostOps3_3 (F := Ideal)) (StableHlo.after (hostOps3_2 (F := Ideal))
      (StableHlo.after (hostOps3_1 (F := Ideal)) (StableHlo.after (hostOps3 (F := Ideal)) W)))) (Proc.devRef .tc main_v55)
    = Cert.ReferenceIdeal.Hand.tail (W (Proc.devRef .tc main_arg1)) (W (Proc.devRef .tc main_arg6)) (W (Proc.devRef .tc main_arg7))
        (W (Proc.devRef .tc main_arg8)) (W (Proc.devRef .tc main_arg9)) (W (Proc.devRef .tc main_v27)) := by
  after_results_simp
  rfl

end Tail

section Chain

open Cert.KernelIdeal Cert.KernelIdeal.Gen

variable (m : (ℓ : Loc nD τ sig) → Buf (Elt Ideal) ℓ) (outs : Outs (F := Ideal)) (c : Dev nD)

theorem V2_launch (r : Ref sig .tc) (h0 : r ∉ hostOps0_W) (h1 : r ∉ ([main_v13] : List (Ref sig .tc))) :
    V2 m outs c (Proc.devRef .tc r) = m ((c.tc : Thread nD τ).loc r) :=
  (V2_of m outs c r h1).trans ((V1_of m c r h0).trans rfl)

theorem V4_launch (r : Ref sig .tc) (h0 : r ∉ hostOps0_W) (h1 : r ∉ ([main_v13] : List (Ref sig .tc)))
    (h2 : r ∉ hostOps1_W) (h3 : r ∉ ([main_v20] : List (Ref sig .tc))) :
    V4 m outs c (Proc.devRef .tc r) = m ((c.tc : Thread nD τ).loc r) :=
  (V4_of m outs c r h3).trans ((V3_of m outs c r h2).trans (V2_launch m outs c r h0 h1))

theorem V6_launch (r : Ref sig .tc) (h0 : r ∉ hostOps0_W) (h1 : r ∉ ([main_v13] : List (Ref sig .tc)))
    (h2 : r ∉ hostOps1_W) (h3 : r ∉ ([main_v20] : List (Ref sig .tc)))
    (h4 : r ∉ hostOps2_W) (h5 : r ∉ ([main_v27] : List (Ref sig .tc))) :
    V6 m outs c (Proc.devRef .tc r) = m ((c.tc : Thread nD τ).loc r) :=
  (V6_of m outs c r h5).trans ((V5_of m outs c r h4).trans (V4_launch m outs c r h0 h1 h2 h3))

theorem V1_arg2 : V1 m c (Proc.devRef .tc main_arg2) = m ((c.tc : Thread nD τ).loc main_arg2) :=
  (V1_of m c main_arg2 (by decide)).trans rfl
theorem V1_v6 : V1 m c (Proc.devRef .tc main_v6)
    = Cert.ReferenceIdeal.Hand.head (m ((c.tc : Thread nD τ).loc main_arg0)) (m ((c.tc : Thread nD τ).loc main_arg3)) := stretch0_v6 (V0 m c)
theorem V1_v11 : V1 m c (Proc.devRef .tc main_v11) = Cert.ReferenceIdeal.Hand.wtOf0 (m ((c.tc : Thread nD τ).loc main_arg4)) := stretch0_v11 (V0 m c)
theorem V1_v12 : V1 m c (Proc.devRef .tc main_v12) = biasRow (Cert.ReferenceIdeal.Hand.b64Of0 (m ((c.tc : Thread nD τ).loc main_arg5))) := stretch0_v12 (V0 m c)

theorem V3_arg2 : V3 m outs c (Proc.devRef .tc main_arg2) = m ((c.tc : Thread nD τ).loc main_arg2) :=
  (V3_of m outs c main_arg2 (by decide)).trans (V2_launch m outs c main_arg2 (by decide) (by decide))
theorem V3_v13 : V3 m outs c (Proc.devRef .tc main_v13) = outs 2 main_v13 c :=
  (V3_of m outs c main_v13 (by decide)).trans (Function.update_self _ _ _)
theorem V3_v18 : V3 m outs c (Proc.devRef .tc main_v18) = Cert.ReferenceIdeal.Hand.wtOf1 (m ((c.tc : Thread nD τ).loc main_arg4)) :=
  (stretch1_v18 (V2 m outs c)).trans (congrArg Cert.ReferenceIdeal.Hand.wtOf1 (V2_launch m outs c main_arg4 (by decide) (by decide)))
theorem V3_v19 : V3 m outs c (Proc.devRef .tc main_v19) = biasRow (Cert.ReferenceIdeal.Hand.b64Of1 (m ((c.tc : Thread nD τ).loc main_arg5))) :=
  (stretch1_v19 (V2 m outs c)).trans (congrArg (fun a => biasRow (Cert.ReferenceIdeal.Hand.b64Of1 a)) (V2_launch m outs c main_arg5 (by decide) (by decide)))

theorem V5_arg2 : V5 m outs c (Proc.devRef .tc main_arg2) = m ((c.tc : Thread nD τ).loc main_arg2) :=
  (V5_of m outs c main_arg2 (by decide)).trans (V4_launch m outs c main_arg2 (by decide) (by decide) (by decide) (by decide))
theorem V5_v20 : V5 m outs c (Proc.devRef .tc main_v20) = outs 4 main_v20 c :=
  (V5_of m outs c main_v20 (by decide)).trans (Function.update_self _ _ _)
theorem V5_v25 : V5 m outs c (Proc.devRef .tc main_v25) = Cert.ReferenceIdeal.Hand.wtOf2 (m ((c.tc : Thread nD τ).loc main_arg4)) :=
  (stretch2_v25 (V4 m outs c)).trans (congrArg Cert.ReferenceIdeal.Hand.wtOf2 (V4_launch m outs c main_arg4 (by decide) (by decide) (by decide) (by decide)))
theorem V5_v26 : V5 m outs c (Proc.devRef .tc main_v26) = biasRow (Cert.ReferenceIdeal.Hand.b64Of2 (m ((c.tc : Thread nD τ).loc main_arg5))) :=
  (stretch2_v26 (V4 m outs c)).trans (congrArg (fun a => biasRow (Cert.ReferenceIdeal.Hand.b64Of2 a)) (V4_launch m outs c main_arg5 (by decide) (by decide) (by decide) (by decide)))

theorem V6_v27 : V6 m outs c (Proc.devRef .tc main_v27) = outs 6 main_v27 c := Function.update_self _ _ _

theorem V11_v55 : V11 m outs c (Proc.devRef .tc main_v55)
    = Cert.ReferenceIdeal.Hand.tail (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (outs 6 main_v27 c) := by
  refine (tail_read (V6 m outs c)).trans ?_
  rw [V6_launch m outs c main_arg1 (by decide) (by decide) (by decide) (by decide) (by decide) (by decide), V6_launch m outs c main_arg6 (by decide) (by decide) (by decide) (by decide) (by decide) (by decide), V6_launch m outs c main_arg7 (by decide) (by decide) (by decide) (by decide) (by decide) (by decide),
    V6_launch m outs c main_arg8 (by decide) (by decide) (by decide) (by decide) (by decide) (by decide), V6_launch m outs c main_arg9 (by decide) (by decide) (by decide) (by decide) (by decide) (by decide), V6_v27 m outs c]

end Chain

section Results

open Cert.KernelIdeal Cert.KernelIdeal.Gen Cert.KernelIdeal.Hand

theorem result_eq
    (h0 : ∀ (V : (c : Dev nD) → (b : Ref sig .tc) → Buf (Elt Ideal) ((c : Thread nD τ).loc b)) (c : Dev nD),
      (dat0 V c).arrAt 5 cfg0.N = Cert.Spec.layer (V c main_arg2) (V c main_v6) (V c main_v11) (V c main_v12))
    (h1 : ∀ (V : (c : Dev nD) → (b : Ref sig .tc) → Buf (Elt Ideal) ((c : Thread nD τ).loc b)) (c : Dev nD),
      (dat1 V c).arrAt 5 cfg1.N = Cert.Spec.layer (V c main_arg2) (V c main_v13) (V c main_v18) (V c main_v19))
    (h2 : ∀ (V : (c : Dev nD) → (b : Ref sig .tc) → Buf (Elt Ideal) ((c : Thread nD τ).loc b)) (c : Dev nD),
      (dat2 V c).arrAt 5 cfg2.N = Cert.Spec.layer (V c main_arg2) (V c main_v20) (V c main_v25) (V c main_v26))
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.KernelIdeal.Gen.V11 m (Cert.KernelIdeal.Hand.outs m) c (Proc.devRef .tc Cert.KernelIdeal.main_v55) = Cert.ReferenceIdeal.Value.res_main_v70 (F := Ideal) m' c := by
  obtain ⟨e0, e1, e2, e3, e4, e5, e6, e7, e8, e9⟩ := hagree c

  have hO2 : O2 m c = Cert.Spec.layer (m ((c.tc : Thread nD τ).loc main_arg2)) (Cert.ReferenceIdeal.Hand.head (m ((c.tc : Thread nD τ).loc main_arg0)) (m ((c.tc : Thread nD τ).loc main_arg3)))
      (Cert.ReferenceIdeal.Hand.wtOf0 (m ((c.tc : Thread nD τ).loc main_arg4))) (biasRow (Cert.ReferenceIdeal.Hand.b64Of0 (m ((c.tc : Thread nD τ).loc main_arg5)))) := by
    refine (h0 (rd (V1 m)) c).trans ?_
    show Cert.Spec.layer (V1 m c (Proc.devRef .tc main_arg2)) (V1 m c (Proc.devRef .tc main_v6)) (V1 m c (Proc.devRef .tc main_v11))
      (V1 m c (Proc.devRef .tc main_v12)) = _
    rw [V1_arg2, V1_v6, V1_v11, V1_v12]

  have hO4 : O4 m c = Cert.Spec.layer (m ((c.tc : Thread nD τ).loc main_arg2)) (O2 m c)
      (Cert.ReferenceIdeal.Hand.wtOf1 (m ((c.tc : Thread nD τ).loc main_arg4))) (biasRow (Cert.ReferenceIdeal.Hand.b64Of1 (m ((c.tc : Thread nD τ).loc main_arg5)))) := by
    refine (h1 (rd (V3 m (outsA m))) c).trans ?_
    show Cert.Spec.layer (V3 m (outs m) c (Proc.devRef .tc main_arg2)) (V3 m (outs m) c (Proc.devRef .tc main_v13))
      (V3 m (outs m) c (Proc.devRef .tc main_v18)) (V3 m (outs m) c (Proc.devRef .tc main_v19)) = _
    rw [V3_arg2, V3_v13, V3_v18, V3_v19, outs_main_v13]

  have hO6 : O6 m c = Cert.Spec.layer (m ((c.tc : Thread nD τ).loc main_arg2)) (O4 m c)
      (Cert.ReferenceIdeal.Hand.wtOf2 (m ((c.tc : Thread nD τ).loc main_arg4))) (biasRow (Cert.ReferenceIdeal.Hand.b64Of2 (m ((c.tc : Thread nD τ).loc main_arg5)))) := by
    refine (h2 (rd (V5 m (outsB m))) c).trans ?_
    show Cert.Spec.layer (V5 m (outs m) c (Proc.devRef .tc main_arg2)) (V5 m (outs m) c (Proc.devRef .tc main_v20))
      (V5 m (outs m) c (Proc.devRef .tc main_v25)) (V5 m (outs m) c (Proc.devRef .tc main_v26)) = _
    rw [V5_arg2, V5_v20, V5_v25, V5_v26, outs_main_v20]

  rw [Cert.ReferenceIdeal.Hand.res_eq, e0, e1, e2, e3, e4, e5, e6, e7, e8, e9, refLayer_row, refLayer_row, refLayer_row]

  rw [V11_v55, outs_main_v27, hO6, hO4, hO2]

end Results

end Cert.Proof.Bridge

end
-- ==== Proof.lean ====
import proofs.«138717_j6734508720258_1_alg».proof.Defs
import proofs.«138717_j6734508720258_1_alg».proof.Proof.Gen.Kernel
import proofs.«138717_j6734508720258_1_alg».proof.Proof.Gen.KernelIdeal
import proofs.«138717_j6734508720258_1_alg».proof.Proof.Gen.ReferenceIdeal
import proofs.«138717_j6734508720258_1_alg».proof.Proof.Gen.Pre_finite_inputs
import proofs.«138717_j6734508720258_1_alg».proof.Proof.KB.Run
import proofs.«138717_j6734508720258_1_alg».proof.Proof.KI.Run
import proofs.«138717_j6734508720258_1_alg».proof.Proof.KI.R0.Value
import proofs.«138717_j6734508720258_1_alg».proof.Proof.KI.R1.Value
import proofs.«138717_j6734508720258_1_alg».proof.Proof.KI.R2.Value
import proofs.«138717_j6734508720258_1_alg».proof.Proof.Ref.Run
import proofs.«138717_j6734508720258_1_alg».proof.Proof.Bridge

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem algebraic : Cert.algebraic_KernelIdeal_ReferenceIdeal := by
  intro m ρ m' ρ' _ hagree
  refine ⟨fun c => Cert.ReferenceIdeal.Value.res_main_v70 (F := Ideal) m' c, ?_, Cert.ReferenceIdeal.Value.run (F := Ideal) m' ρ'⟩
  exact (θ_run Cert.KernelIdeal.defs _ _).mono
    (fun _ h c => ⟨(h c).1.trans (Cert.Proof.Bridge.result_eq Cert.KernelIdeal.Hand.arrAt0_out Cert.KernelIdeal.Hand.arrAt1_out
      Cert.KernelIdeal.Hand.arrAt2_out m m' hagree c), (h c).2⟩)
    (Cert.KernelIdeal.Hand.run_main (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, trivial, algebraic⟩

end Cert.Proof

end
